-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 1 := constantI S_ 1 1#1
  let main_v36 : IVec S_ 1 := (fun x v => Host.reduce IntOp.andi x v reducesTo_S2x640000_S_d0_1 h_S_) main_v35 main_c_13
  let main_v37 : IVec S_ 1 := andi main_v33 main_v36
  let main_c_14 : IVec S_ 32 := constantI S_ 32 10000#32
  let main_v38 : IVec S2x640000 32 := broadcastInDim S2x640000 ![] bcast_S_S2x640000 main_c_14
  let main_v39 : IVec S2x640000 1 := cmpi .slt main_arg1 main_v38
  let main_c_15 : IVec S_ 1 := constantI S_ 1 1#1
  let main_v40 : IVec S_ 1 := (fun x v => Host.reduce IntOp.andi x v reducesTo_S2x640000_S_d0_1 h_S_) main_v39 main_c_15
  let main_v41 : IVec S_ 1 := andi main_v37 main_v40
  main_v41

def fn_part1 {F : FTy → Type} [FloatOps F] (main_arg1 : IVec S2x640000 32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S104857600 : Shape := ⟨1, ![104857600]⟩
abbrev S10240x10240 : Shape := ⟨2, ![10240, 10240]⟩
abbrev S10240x128 : Shape := ⟨2, ![10240, 128]⟩
abbrev S1 : Shape := ⟨1, ![1]⟩
abbrev S1024x128 : Shape := ⟨2, ![1024, 128]⟩
abbrev S1x128 : Shape := ⟨2, ![1, 128]⟩
abbrev S1024x5120 : Shape := ⟨2, ![1024, 5120]⟩
abbrev S5120x128 : Shape := ⟨2, ![5120, 128]⟩

abbrev nBuf : Space → Nat
  | .hbm => 80
  | .vmem => 39
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000, .i32⟩
  | .hbm, ⟨9, _⟩ => ⟨S1x640000, .i32⟩
  | .hbm, ⟨10, _⟩ => ⟨S640000, .i32⟩
  | .hbm, ⟨11, _⟩ => ⟨S650000, .i32⟩
  | .hbm, ⟨12, _⟩ => ⟨S1x640000, .i32⟩
  | .hbm, ⟨13, _⟩ => ⟨S640000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S_, .i32⟩
  | .hbm, ⟨49, _⟩ => ⟨S650000, .i32⟩
  | .hbm, ⟨50, _⟩ => ⟨S650000, .i32⟩
  | .hbm, ⟨51, _⟩ => ⟨S650000, .i32⟩
  | .hbm, ⟨52, _⟩ => ⟨S_, .f32⟩
  | .hbm, ⟨53, _⟩ => ⟨S104857600, .f32⟩
  | .hbm, ⟨54, _⟩ => ⟨S_, .i32⟩
  | .hbm, ⟨55, _⟩ => ⟨S650000, .i32⟩
  | .hbm, ⟨56, _⟩ => ⟨S650000, .i1⟩
  | .hbm, ⟨57, _⟩ => ⟨S_, .i32⟩
  | .hbm, ⟨58, _⟩ => ⟨S650000, .i32⟩
  | .hbm, ⟨59, _⟩ => ⟨S650000, .i32⟩
  | .hbm, ⟨60, _⟩ => ⟨S650000, .i32⟩
  | .hbm, ⟨61, _⟩ => ⟨S650000x1, .i32⟩
  | .hbm, ⟨62, _⟩ => ⟨S104857600, .f32⟩
  | .hbm, ⟨63, _⟩ => ⟨S10240x10240, .f32⟩
  | .hbm, ⟨64, _⟩ => ⟨S10240x10240, .bf16⟩
  | .hbm, ⟨65, _⟩ => ⟨S_, .f32⟩
  | .hbm, ⟨66, _⟩ => ⟨S10240x128, .f32⟩
  | .hbm, ⟨67, _⟩ => ⟨S_, .i32⟩
  | .hbm, ⟨68, _⟩ => ⟨S1, .i32⟩
  | .hbm, ⟨69, _⟩ => ⟨S10240x128, .f32⟩
  | .hbm, ⟨70, _⟩ => ⟨S10240x128, .bf16⟩
  | .hbm, ⟨71, _⟩ => ⟨S1x128, .f32⟩
  | .hbm, ⟨72, _⟩ => ⟨S10240x128, .bf16⟩
  | .hbm, ⟨73, _⟩ => ⟨S10240x128, .bf16⟩
  | .hbm, ⟨74, _⟩ => ⟨S1x128, .f32⟩
  | .hbm, ⟨75, _⟩ => ⟨S10240x128, .bf16⟩
  | .hbm, ⟨76, _⟩ => ⟨S10240x128, .bf16⟩
  | .hbm, ⟨77, _⟩ => ⟨S1x128, .f32⟩
  | .hbm, ⟨78, _⟩ => ⟨S10240x128, .f32⟩
  | .hbm, ⟨79, _⟩ => ⟨S10000x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S1024x5120, .bf16⟩
  | .local _ .vmem, ⟨6, _⟩ => ⟨S1024x5120, .bf16⟩
  | .local _ .vmem, ⟨7, _⟩ => ⟨S5120x128, .bf16⟩
  | .local _ .vmem, ⟨8, _⟩ => ⟨S5120x128, .bf16⟩
  | .local _ .vmem, ⟨9, _⟩ => ⟨S1x128, .f32⟩
  | .local _ .vmem, ⟨10, _⟩ => ⟨S1024x128, .bf16⟩
  | .local _ .vmem, ⟨11, _⟩ => ⟨S1024x128, .bf16⟩
  | .local _ .vmem, ⟨12, _⟩ => ⟨S1024x128, .f32⟩
  | .local _ .vmem, ⟨13, _⟩ => ⟨S1024x128, .bf16⟩
  | .local _ .vmem, ⟨14, _⟩ => ⟨S1024x128, .bf16⟩
  | .local _ .vmem, ⟨15, _⟩ => ⟨S128x128, .f32⟩
  | .local _ .vmem, ⟨16, _⟩ => ⟨S1024x128, .bf16⟩
  | .local _ .vmem, ⟨17, _⟩ => ⟨S1024x128, .bf16⟩
  | .local _ .vmem, ⟨18, _⟩ => ⟨S1024x5120, .bf16⟩
  | .local _ .vmem, ⟨19, _⟩ => ⟨S1024x5120, .bf16⟩
  | .local _ .vmem, ⟨20, _⟩ => ⟨S5120x128, .bf16⟩
  | .local _ .vmem, ⟨21, _⟩ => ⟨S5120x128, .bf16⟩
  | .local _ .vmem, ⟨22, _⟩ => ⟨S1x128, .f32⟩
  | .local _ .vmem, ⟨23, _⟩ => ⟨S1024x128, .bf16⟩
  | .local _ .vmem, ⟨24, _⟩ => ⟨S1024x128, .bf16⟩
  | .local _ .vmem, ⟨25, _⟩ => ⟨S1024x128, .f32⟩
  | .local _ .vmem, ⟨26, _⟩ => ⟨S1024x128, .bf16⟩
  | .local _ .vmem, ⟨27, _⟩ => ⟨S1024x128, .bf16⟩
  | .local _ .vmem, ⟨28, _⟩ => ⟨S128x128, .f32⟩
  | .local _ .vmem, ⟨29, _⟩ => ⟨S1024x128, .bf16⟩
  | .local _ .vmem, ⟨30, _⟩ => ⟨S1024x128, .bf16⟩
  | .local _ .vmem, ⟨31, _⟩ => ⟨S1024x5120, .bf16⟩
  | .local _ .vmem, ⟨32, _⟩ => ⟨S1024x5120, .bf16⟩
  | .local _ .vmem, ⟨33, _⟩ => ⟨S5120x128, .bf16⟩
  | .local _ .vmem, ⟨34, _⟩ => ⟨S5120x128, .bf16⟩
  | .local _ .vmem, ⟨35, _⟩ => ⟨S1x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_c_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5120x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![10, 2], ![false, false]⟩

def k3_cond2 (i : grid3.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x5120 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S5120x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![10, 2], ![false, false]⟩

def k5_cond2 (i : grid5.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x5120 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S5120x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S104857600 : S_.BroadcastsInDim S104857600 (![] : Fin 0 → Fin S104857600.rank)
  shapeCasts_S104857600_S10240x10240 : S104857600.ShapeCasts S10240x10240
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  iota_S1024x128_d0_w32 : S1024x128.Iotas .tc 32 [0]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S10240x128_S10000x128_0_0 : S10240x128.Slices ![0, 0] S10000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S104857600_S650000x1_S650000_n_0_0_1_wf : ScatterDims.WF S104857600 S650000x1 S650000 [] [0] [0] 1
  scatter_S10240x128_S1_S10000x128_01_n_0_0_wf : ScatterDims.WF S10240x128 S1 S10000x128 [0, 1] [] [0] 0
  dot_S1024x128_S128x128_S1024x128_1_0_0_1_n_n_wf : DotDims.WF S1024x128 S128x128 S1024x128 [1] [0] [0] [1] [] []
  dot_S1024x5120_S5120x128_S1024x128_1_0_0_1_n_n_wf : DotDims.WF S1024x5120 S5120x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S10240x128.size a
  hwx0_0 : ∀ i : grid0.Coords, EltTy.bits .f32 = 32 ∨ (Rect.block (s := S10240x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S10240x128.size a
  hwx0_2 : ∀ i : grid0.Coords, EltTy.bits .bf16 = 32 ∨ (Rect.block (s := S10240x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x5120.size a ≤ S10240x10240.size a
  hwx1_0 : ∀ i : grid1.Coords, EltTy.bits .bf16 = 32 ∨ (Rect.block (s := S10240x10240) S1024x5120.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x128.size a ≤ S10240x128.size a
  hwx1_1 : ∀ i : grid1.Coords, EltTy.bits .bf16 = 32 ∨ (Rect.block (s := S10240x128) S5120x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S10240x128.size a
  hwx1_3 : ∀ i : grid1.Coords, EltTy.bits .bf16 = 32 ∨ (Rect.block (s := S10240x128) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S10240x128.size a
  hwx2_0 : ∀ i : grid2.Coords, EltTy.bits .bf16 = 32 ∨ (Rect.block (s := S10240x128) S1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S10240x128.size a
  hwx2_2 : ∀ i : grid2.Coords, EltTy.bits .bf16 = 32 ∨ (Rect.block (s := S10240x128) S1024x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x5120.size a ≤ S10240x10240.size a
  hwx3_0 : ∀ i : grid3.Coords, EltTy.bits .bf16 = 32 ∨ (Rect.block (s := S10240x10240) S1024x5120.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5120x128.size a ≤ S10240x128.size a
  hwx3_1 : ∀ i : grid3.Coords, EltTy.bits .bf16 = 32 ∨ (Rect.block (s := S10240x128) S5120x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S10240x128.size a
  hwx3_3 : ∀ i : grid3.Coords, EltTy.bits .bf16 = 32 ∨ (Rect.block (s := S10240x128) S1024x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S10240x128.size a
  hwx4_0 : ∀ i : grid4.Coords, EltTy.bits .bf16 = 32 ∨ (Rect.block (s := S10240x128) S1024x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S10240x128.size a
  hwx4_2 : ∀ i : grid4.Coords, EltTy.bits .bf16 = 32 ∨ (Rect.block (s := S10240x128) S1024x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x5120.size a ≤ S10240x10240.size a
  hwx5_0 : ∀ i : grid5.Coords, EltTy.bits .bf16 = 32 ∨ (Rect.block (s := S10240x10240) S1024x5120.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5120x128.size a ≤ S10240x128.size a
  hwx5_1 : ∀ i : grid5.Coords, EltTy.bits .bf16 = 32 ∨ (Rect.block (s := S10240x128) S5120x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x128.size a ≤ S10240x128.size a
  hwx5_3 : ∀ i : grid5.Coords, EltTy.bits .f32 = 32 ∨ (Rect.block (s := S10240x128) S1024x128.size (cc5_transform_3 i) (hinb5_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S104857600_S650000x1_S650000_n_0_0_1 : ScatterDims S104857600 S650000x1 S650000 where
  updateWindowDims := []
  insertedWindowDims := [0]
  scatterDimsToOperandDims := [0]
  indexVectorDim := 1
  wf := scatter_S104857600_S650000x1_S650000_n_0_0_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x5120_S5120x128_S1024x128_1_0_0_1_n_n : DotDims S1024x5120 S5120x128 S1024x128 where
  lhsContracting := [1]
  rhsContracting := [0]
  lhsNonContracting := [0]
  rhsNonContracting := [1]
  lhsBatch := []
  rhsBatch := []
  wf := dot_S1024x5120_S5120x128_S1024x128_1_0_0_1_n_n_wf

abbrev win0_0 : Pipeline.Window sig grid0 :=
  Pipeline.Window.ofSpec (Memref.whole main_v45) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S1024x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5120x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v48) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S1024x5120.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5120x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v51) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v42) S1024x5120.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5120x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1024x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000, .i32⟩
  | .hbm, ⟨9, _⟩ => ⟨S1x640000, .i32⟩
  | .hbm, ⟨10, _⟩ => ⟨S640000, .i32⟩
  | .hbm, ⟨11, _⟩ => ⟨S650000, .i32⟩
  | .hbm, ⟨12, _⟩ => ⟨S1x640000, .i32⟩
  | .hbm, ⟨13, _⟩ => ⟨S640000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .i1⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S10000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S10000x128, .f32⟩
  | .hbm, ⟨63, _⟩ => ⟨S650000x1, .i32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x128, .f32⟩
  | .hbm, ⟨81, _⟩ => ⟨S650000x1, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S10000x128, .f32⟩
  | .hbm, ⟨86, _⟩ => ⟨S650000x1, .i32⟩
  | .hbm, ⟨87, _⟩ => ⟨S10000x128, .f32⟩
  | .hbm, ⟨88, _⟩ => ⟨S1x128, .f32⟩
  | .hbm, ⟨89, _⟩ => ⟨S10000x128, .f32⟩
  | .hbm, ⟨90, _⟩ => ⟨S10000x128, .f32⟩
  | .hbm, ⟨91, _⟩ => ⟨S_, .f32⟩
  | .hbm, ⟨92, _⟩ => ⟨S10000x128, .f32⟩
  | .hbm, ⟨93, _⟩ => ⟨S10000x128, .f32⟩
  | .hbm, ⟨94, _⟩ => ⟨S10000x128, .f32⟩
  | .hbm, ⟨95, _⟩ => ⟨S_, .i32⟩
  | .hbm, ⟨96, _⟩ => ⟨S650000, .i32⟩
  | .hbm, ⟨97, _⟩ => ⟨S650000, .i1⟩
  | .hbm, ⟨98, _⟩ => ⟨S_, .i32⟩
  | .hbm, ⟨99, _⟩ => ⟨S650000, .i32⟩
  | .hbm, ⟨100, _⟩ => ⟨S650000, .i32⟩
  | .hbm, ⟨101, _⟩ => ⟨S650000, .i32⟩
  | .hbm, ⟨102, _⟩ => ⟨S650000x1, .i32⟩
  | .hbm, ⟨103, _⟩ => ⟨S650000x128, .f32⟩
  | .hbm, ⟨104, _⟩ => ⟨S650000x1, .f32⟩
  | .hbm, ⟨105, _⟩ => ⟨S650000x128, .f32⟩
  | .hbm, ⟨106, _⟩ => ⟨S650000x128, .f32⟩
  | .hbm, ⟨107, _⟩ => ⟨S_, .f32⟩
  | .hbm, ⟨108, _⟩ => ⟨S10000x128, .f32⟩
  | .hbm, ⟨109, _⟩ => ⟨S650000x1, .i32⟩
  | .hbm, ⟨110, _⟩ => ⟨S10000x128, .f32⟩
  | .hbm, ⟨111, _⟩ => ⟨S1x128, .f32⟩
  | .hbm, ⟨112, _⟩ => ⟨S10000x128, .f32⟩
  | .hbm, ⟨113, _⟩ => ⟨S10000x128, .f32⟩
  | .hbm, ⟨114, _⟩ => ⟨S_, .f32⟩
  | .hbm, ⟨115, _⟩ => ⟨S10000x128, .f32⟩
  | .hbm, ⟨116, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf

class Facts : Prop extends Facts₀ where

variable [Facts]
-- ==== Proof.KB.Lin0.lean ====
import proofs.«414382_j4741643895756_3_alg».proof.Proof.Gen.Kernel.Launch
import proofs.«414382_j4741643895756_3_alg».proof.Proof.Gen.Kernel.Skeleton
import proofs.«414382_j4741643895756_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S1024x128 := Rect.unit (s := S1024x128) ![0, 0] S1024x128.size inb_S1024x128_S1024x128_0_0

abbrev rw0 : Rect S128x128 := Rect.unit (s := S128x128) ![0, 0] S128x128.size inb_S128x128_S128x128_0_0

def out0_2 (x0 : Vec F S1024x128 .f32) (x1 : Vec F S128x128 .f32) : Vec F S1024x128 .bf16 :=
  View.canon [⟨rx0, k0_pay1 (View.ld x0 rx0) (View.ld x1 rw0)⟩]

theorem sound_kernel0 (c : Dev nD) (E : Set ℕ) (i : grid0.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Agg1.lean ====
import proofs.«414382_j4741643895756_3_alg».proof.Proof.Gen.Kernel.Launch
import proofs.«414382_j4741643895756_3_alg».proof.Proof.Gen.Kernel.Skeleton
import proofs.«414382_j4741643895756_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1

theorem hcond1_1 : ∀ t : Fin cfg1.N, cond1_1 (grid1.coords t) ↔ t.val % 2 = 1 :=
  (by decide +kernel : ∀ t : Fin grid1.N, cond1_1 (grid1.coords t) ↔ t.val % 2 = 1)

theorem liveAt1 : ∀ (w : Fin cfg1.W) (t : Fin cfg1.N), w ≠ 3 → cfg1.idle w (grid1.coords t) = false := by decide +kernel

theorem idleAt1_3_A : ∀ t : Fin cfg1.N, t.val % 2 = 0 → cfg1.idle 3 (grid1.coords t) = true := by decide +kernel

theorem noFlush1_3_A : ∀ t : Fin cfg1.N, t.val % 2 = 0 → (cfg1.win 3).flush t = false := by decide +kernel

theorem liveAt1_3_B : ∀ t : Fin cfg1.N, ¬t.val % 2 = 0 → cfg1.idle 3 (grid1.coords t) = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1 : View sig .tc .vmem S1024x128 .bf16 := (Memref.whole cc1_stg3_0 : Memref sig .tc .vmem S1024x128 .bf16).view
abbrev ms1_0 (t : Fin cfg1.N) : Memref sig .tc .vmem S1024x5120 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5120x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)

abbrev scM1 : Memref sig .tc .vmem S1024x128 .f32 := Memref.whole cc1_scratch0
abbrev VS1 : View sig .tc .vmem S1024x128 .f32 := scM1.view

/-- The region's invariant with one scoped buffer split out and held as `P`. -/
def PhiX1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = PhiX1 c iprop(∃ d, owns (c : Thread nD τ) scM1 fullShare d) := by
  unfold PhiX1 Pipeline.ΦA; rw [scopedRest1_split]; simp only [scM1, owns_whole]; try rfl

section
variable (c : Dev nD) (i : grid1.Coords) (arg2 : Memref sig .tc .vmem S1024x5120 .bf16) (harg2 : arg2.IsWhole) (arg3 : Memref sig .tc .vmem S5120x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole)

section
variable (hc0 : cond1_0 i) (hc1 : ¬cond1_1 i) (x0 : Vec F S1024x5120 .bf16) (x1 : Vec F S5120x128 .bf16) (x2 : Vec F S1x128 .f32)

noncomputable def kernelRun1_A :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨[], ?_, fun xi3 E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end

section
variable (hc0 : ¬cond1_0 i) (hc1 : cond1_1 i) (x0 : Vec F S1024x5120 .bf16) (x1 : Vec F S5120x128 .bf16) (x2 : Vec F S1x128 .f32) (xs0 : Vec F S1024x128 .f32)

noncomputable def kernelRun1_B :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨?_, ?_, fun E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end

def runA1 (c : Dev nD) (t : Fin cfg1.N) (h0 : t.val % 2 = 0) :=
  kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => by have := (hcond1_1 t).mp h; omega) (iblk1 V c 0 t) (iblk1 V c 1 t) (iblk1 V c 2 t)

def runB1 (c : Dev nD) (t : Fin cfg1.N) (h0 : ¬t.val % 2 = 0) (xs0 : Vec F S1024x128 .f32) :=
  kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr (by omega)) (iblk1 V c 0 t) (iblk1 V c 1 t) (iblk1 V c 2 t) xs0

theorem scover1_A (c : Dev nD) (t : Fin cfg1.N) (h0 : t.val % 2 = 0) (y : S1024x128.Idx) : ∃ pc ∈ (runA1 V c t h0).2.1, y ∈ pc.1.set :=
  View.cover_of_tiledL _ S1024x128.size (by sl_kernel_rfl) y

theorem cover1_B_3 (c : Dev nD) (t : Fin cfg1.N) (h0 : ¬t.val % 2 = 0) (xs0 : Vec F S1024x128 .f32) (y : S1024x128.Idx) :
    ∃ pc ∈ (runB1 V c t h0 xs0).1, y ∈ pc.1.set :=
  View.cover_of_tiledL _ S1024x128.size (by sl_kernel_rfl) y

theorem scover1_B (c : Dev nD) (t : Fin cfg1.N) (h0 : ¬t.val % 2 = 0) (xs0 : Vec F S1024x128 .f32) (y : S1024x128.Idx) :
    ∃ pc ∈ (runB1 V c t h0 xs0).2.1, y ∈ pc.1.set :=
  View.cover_of_tiledL _ S1024x128.size (by sl_kernel_rfl) y

def outA1 (c : Dev nD) (t : Fin cfg1.N) (h0 : t.val % 2 = 0) : Vec F S1024x128 .bf16 × Vec F S1024x128 .f32 :=
  (VO1.read (Elt F) (VO1.writes (Elt F) VO1.junk (runA1 V c t h0).1), VS1.read (Elt F) (VS1.writes (Elt F) VS1.junk (runA1 V c t h0).2.1))

def outB1 (c : Dev nD) (t : Fin cfg1.N) (h0 : ¬t.val % 2 = 0) (xs0 : Vec F S1024x128 .f32) : Vec F S1024x128 .bf16 × Vec F S1024x128 .f32 :=
  (VO1.read (Elt F) (VO1.writes (Elt F) VO1.junk (runB1 V c t h0 xs0).1), VS1.read (Elt F) (VS1.writes (Elt F) VS1.junk (runB1 V c t h0 xs0).2.1))

def stepAt1 (c : Dev nD) (t : Fin cfg1.N) (prev : Vec F S1024x128 .f32) : Vec F S1024x128 .bf16 × Vec F S1024x128 .f32 :=
  if h0 : t.val % 2 = 0 then outA1 V c t h0 else outB1 V c t h0 prev

def outsAt1 (c : Dev nD) : (n : ℕ) → n < cfg1.N → Vec F S1024x128 .bf16 × Vec F S1024x128 .f32
  | 0, hn => stepAt1 V c ⟨0, hn⟩ (VS1.read (Elt F) VS1.junk)
  | n + 1, hn => stepAt1 V c ⟨n + 1, hn⟩ (outsAt1 c n (Nat.lt_of_succ_lt hn)).2

theorem outsAt1_A (c : Dev nD) (t : Fin cfg1.N) (h0 : t.val % 2 = 0) : outsAt1 V c t.val t.isLt = outA1 V c t h0 := by
  obtain ⟨n, hn⟩ := t
  cases n with
  | zero => exact (dif_pos h0 : stepAt1 V c ⟨0, hn⟩ (VS1.read (Elt F) VS1.junk) = _)
  | succ n => exact (dif_pos h0 : stepAt1 V c ⟨n + 1, hn⟩ (outsAt1 V c n (Nat.lt_of_succ_lt hn)).2 = _)

theorem outsAt1_B (c : Dev nD) (t : Fin cfg1.N) (h0 : ¬t.val % 2 = 0) :
    outsAt1 V c t.val t.isLt = outB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0 : stepAt1 V c ⟨n + 1, hn⟩ (outsAt1 V c n (Nat.lt_of_succ_lt hn)).2 = _)

def PhiS1 (c : Dev nD) : (n : ℕ) → n ≤ cfg1.N → sProp 𝕄
  | 0, _ => Pipeline.ΦA spec1 c
  | n + 1, hn => PhiX1 c (owns (c : Thread nD τ) scM1 fullShare (outsAt1 V c n hn).2)

theorem PhiS1_pos (c : Dev nD) (n : ℕ) (h : n ≤ cfg1.N) (hz : n ≠ 0) :
    PhiS1 V c n h = PhiX1 c (owns (c : Thread nD τ) scM1 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem Phi_weak1 (c : Dev nD) (t : Fin (cfg1.N + 1)) :
    (dat1 V c).Φ t ⊢ PhiX1 c iprop(∃ d, owns (c : Thread nD τ) scM1 fullShare d) := by
  obtain ⟨n, hn⟩ := t
  cases n with
  | zero => show Pipeline.ΦA spec1 c ⊢ _; rw [PhiA1_eq]
  | succ n =>
    show PhiX1 c _ ⊢ _; unfold PhiX1
    iintro ⟨⟨HS0, Hrest⟩, Hg⟩
    iframe Hrest Hg
    iexists _; iexact HS0

theorem hout1 (c : Dev nD) : (dat1 V c).Φ (Fin.last cfg1.N) ⊢ Pipeline.ΦA spec1 c := by
  rw [PhiA1_eq]; exact Phi_weak1 V c _

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiX1 c (owns (c : Thread nD τ) scM1 fullShare (outsAt1 V c t.val t.isLt).2) from rfl]
  rw [show (dat1 V c).leavesExact 0 t = owns (c : Thread nD τ) (ms1_0 t) fullShare (iblk1 V c 0 t) from by
    unfold Dat.leavesExact; rw [liveAt1 0 t (by decide)]; rfl]
  rw [show (dat1 V c).leavesExact 1 t = owns (c : Thread nD τ) (ms1_1 t) fullShare (iblk1 V c 1 t) from by
    unfold Dat.leavesExact; rw [liveAt1 1 t (by decide)]; rfl]
  rw [show (dat1 V c).leavesExact 2 t = owns (c : Thread nD τ) (ms1_2 t) fullShare (iblk1 V c 2 t) from by
    unfold Dat.leavesExact; rw [liveAt1 2 t (by decide)]; rfl]
  by_cases h0 : t.val % 2 = 0
  · rw [Dat.leavesExact_idle (dat1 V c) 3 t (idleAt1_3_A t h0) (noFlush1_3_A t h0)]
    rw [outsAt1_A V c t h0]
    unfold outA1; dsimp only
    have hw := Phi_weak1 V c t.castSucc
    unfold PhiX1 at hw ⊢
    iintro ⟨HΦ, Ho, ⟨%d0, H0⟩, ⟨%d1, H1⟩, ⟨%d2, H2⟩, ⟨%d3, H3⟩⟩
    ihave HΦ' := hw $$ HΦ
    icases HΦ' with ⟨⟨HS0, Hrest⟩, Hg⟩
    iapply ((runA1 V c t h0).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover1_A V c t h0)
    iexists _; iexact H3
  · rw [show (dat1 V c).leavesExact 3 t = owns (c : Thread nD τ) (ms1_3 t) fullShare ((dat1 V c).after 3 t) from by
      unfold Dat.leavesExact; rw [liveAt1_3_B t h0], after1_3]
    rw [outsAt1_B V c t h0]
    unfold outB1; dsimp only
    have hz : t.val ≠ 0 := by omega
    rw [show (dat1 V c).Φ t.castSucc = PhiS1 V c t.val (Nat.le_of_lt t.isLt) from rfl, PhiS1_pos V c _ _ hz]; unfold PhiX1
    iintro ⟨⟨⟨HS0, Hrest⟩, Hg⟩, Ho, ⟨%d0, H0⟩, ⟨%d1, H1⟩, ⟨%d2, H2⟩, ⟨%d3, H3⟩⟩
    iapply ((runB1 V c t h0 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · unfold owns; iexists _; isplitr
      swap; · iexact HS0
      ipureintro; exact View.read_writes_of_cover _ _ _ _ _ (scover1_B V c t h0 _)
    unfold owns; iexists _; isplitr
    swap; · iexact H3
    ipureintro; exact View.read_writes_of_cover _ _ _ _ _ (cover1_B_3 V c t h0 _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Lin2.lean ====
import proofs.«414382_j4741643895756_3_alg».proof.Proof.Gen.Kernel.Launch
import proofs.«414382_j4741643895756_3_alg».proof.Proof.Gen.Kernel.Skeleton
import proofs.«414382_j4741643895756_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rx2 : Rect S1024x128 := Rect.unit (s := S1024x128) ![0, 0] S1024x128.size inb_S1024x128_S1024x128_0_0

abbrev rw2 : Rect S128x128 := Rect.unit (s := S128x128) ![0, 0] S128x128.size inb_S128x128_S128x128_0_0

def out2_2 (x0 : Vec F S1024x128 .bf16) (x1 : Vec F S128x128 .f32) : Vec F S1024x128 .bf16 :=
  View.canon [⟨rx2, k2_pay1 (View.ld x0 rx2) (View.ld x1 rw2)⟩]

theorem sound_kernel2 (c : Dev nD) (E : Set ℕ) (i : grid2.Coords) (arg0 : Memref sig .tc .vmem S1024x128 .bf16) (harg0 : arg0.IsWhole) (arg1 : Memref sig .tc .vmem S128x128 .f32) (harg1 : arg1.IsWhole) (arg2 : Memref sig .tc .vmem S1024x128 .bf16) (harg2 : arg2.IsWhole)
    (x0 : Vec F S1024x128 .bf16) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Agg3.lean ====
import proofs.«414382_j4741643895756_3_alg».proof.Proof.Gen.Kernel.Launch
import proofs.«414382_j4741643895756_3_alg».proof.Proof.Gen.Kernel.Skeleton
import proofs.«414382_j4741643895756_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 2 = 0 :=
  (by decide +kernel : ∀ t : Fin grid3.N, cond3_0 (grid3.coords t) ↔ t.val % 2 = 0)

abbrev cond3_1 (i : grid3.Coords) : Prop := k3_cond2 i = 1#1

theorem hcond3_1 : ∀ t : Fin cfg3.N, cond3_1 (grid3.coords t) ↔ t.val % 2 = 1 :=
  (by decide +kernel : ∀ t : Fin grid3.N, cond3_1 (grid3.coords t) ↔ t.val % 2 = 1)

theorem liveAt3 : ∀ (w : Fin cfg3.W) (t : Fin cfg3.N), w ≠ 3 → cfg3.idle w (grid3.coords t) = false := by decide +kernel

theorem idleAt3_3_A : ∀ t : Fin cfg3.N, t.val % 2 = 0 → cfg3.idle 3 (grid3.coords t) = true := by decide +kernel

theorem noFlush3_3_A : ∀ t : Fin cfg3.N, t.val % 2 = 0 → (cfg3.win 3).flush t = false := by decide +kernel

theorem liveAt3_3_B : ∀ t : Fin cfg3.N, ¬t.val % 2 = 0 → cfg3.idle 3 (grid3.coords t) = false := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev VO3 : View sig .tc .vmem S1024x128 .bf16 := (Memref.whole cc3_stg3_0 : Memref sig .tc .vmem S1024x128 .bf16).view
abbrev ms3_0 (t : Fin cfg3.N) : Memref sig .tc .vmem S1024x5120 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5120x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .bf16 := win3_3.stage (cfg3.slots t 3)
abbrev hs3_3 (t : Fin cfg3.N) : (ms3_3 t).IsWhole := hstage3_3 ((cfg3.slots t 3).cast nbuf3_3)

abbrev scM3 : Memref sig .tc .vmem S1024x128 .f32 := Memref.whole cc3_scratch0
abbrev VS3 : View sig .tc .vmem S1024x128 .f32 := scM3.view

/-- The region's invariant with one scoped buffer split out and held as `P`. -/
def PhiX3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = PhiX3 c iprop(∃ d, owns (c : Thread nD τ) scM3 fullShare d) := by
  unfold PhiX3 Pipeline.ΦA; rw [scopedRest3_split]; simp only [scM3, owns_whole]; try rfl

section
variable (c : Dev nD) (i : grid3.Coords) (arg2 : Memref sig .tc .vmem S1024x5120 .bf16) (harg2 : arg2.IsWhole) (arg3 : Memref sig .tc .vmem S5120x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole)

section
variable (hc0 : cond3_0 i) (hc1 : ¬cond3_1 i) (x0 : Vec F S1024x5120 .bf16) (x1 : Vec F S5120x128 .bf16) (x2 : Vec F S1x128 .f32)

noncomputable def kernelRun3_A :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_agg_kernel i arg2 harg2 arg3 harg3 arg4 harg4 arg5 harg5 arg6 harg6) K } := by
  refine ⟨[], ?_, fun xi3 E K => ?run⟩
  case run =>
    simp only [cc3__gcn_agg_kernel_eq_skeleton]; unfold cc3__gcn_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end

section
variable (hc0 : ¬cond3_0 i) (hc1 : cond3_1 i) (x0 : Vec F S1024x5120 .bf16) (x1 : Vec F S5120x128 .bf16) (x2 : Vec F S1x128 .f32) (xs0 : Vec F S1024x128 .f32)

noncomputable def kernelRun3_B :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_agg_kernel i arg2 harg2 arg3 harg3 arg4 harg4 arg5 harg5 arg6 harg6) K } := by
  refine ⟨?_, ?_, fun E K => ?run⟩
  case run =>
    simp only [cc3__gcn_agg_kernel_eq_skeleton]; unfold cc3__gcn_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end

def runA3 (c : Dev nD) (t : Fin cfg3.N) (h0 : t.val % 2 = 0) :=
  kernelRun3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => by have := (hcond3_1 t).mp h; omega) (iblk3 V c 0 t) (iblk3 V c 1 t) (iblk3 V c 2 t)

def runB3 (c : Dev nD) (t : Fin cfg3.N) (h0 : ¬t.val % 2 = 0) (xs0 : Vec F S1024x128 .f32) :=
  kernelRun3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr (by omega)) (iblk3 V c 0 t) (iblk3 V c 1 t) (iblk3 V c 2 t) xs0

theorem scover3_A (c : Dev nD) (t : Fin cfg3.N) (h0 : t.val % 2 = 0) (y : S1024x128.Idx) : ∃ pc ∈ (runA3 V c t h0).2.1, y ∈ pc.1.set :=
  View.cover_of_tiledL _ S1024x128.size (by sl_kernel_rfl) y

theorem cover3_B_3 (c : Dev nD) (t : Fin cfg3.N) (h0 : ¬t.val % 2 = 0) (xs0 : Vec F S1024x128 .f32) (y : S1024x128.Idx) :
    ∃ pc ∈ (runB3 V c t h0 xs0).1, y ∈ pc.1.set :=
  View.cover_of_tiledL _ S1024x128.size (by sl_kernel_rfl) y

theorem scover3_B (c : Dev nD) (t : Fin cfg3.N) (h0 : ¬t.val % 2 = 0) (xs0 : Vec F S1024x128 .f32) (y : S1024x128.Idx) :
    ∃ pc ∈ (runB3 V c t h0 xs0).2.1, y ∈ pc.1.set :=
  View.cover_of_tiledL _ S1024x128.size (by sl_kernel_rfl) y

def outA3 (c : Dev nD) (t : Fin cfg3.N) (h0 : t.val % 2 = 0) : Vec F S1024x128 .bf16 × Vec F S1024x128 .f32 :=
  (VO3.read (Elt F) (VO3.writes (Elt F) VO3.junk (runA3 V c t h0).1), VS3.read (Elt F) (VS3.writes (Elt F) VS3.junk (runA3 V c t h0).2.1))

def outB3 (c : Dev nD) (t : Fin cfg3.N) (h0 : ¬t.val % 2 = 0) (xs0 : Vec F S1024x128 .f32) : Vec F S1024x128 .bf16 × Vec F S1024x128 .f32 :=
  (VO3.read (Elt F) (VO3.writes (Elt F) VO3.junk (runB3 V c t h0 xs0).1), VS3.read (Elt F) (VS3.writes (Elt F) VS3.junk (runB3 V c t h0 xs0).2.1))

def stepAt3 (c : Dev nD) (t : Fin cfg3.N) (prev : Vec F S1024x128 .f32) : Vec F S1024x128 .bf16 × Vec F S1024x128 .f32 :=
  if h0 : t.val % 2 = 0 then outA3 V c t h0 else outB3 V c t h0 prev

def outsAt3 (c : Dev nD) : (n : ℕ) → n < cfg3.N → Vec F S1024x128 .bf16 × Vec F S1024x128 .f32
  | 0, hn => stepAt3 V c ⟨0, hn⟩ (VS3.read (Elt F) VS3.junk)
  | n + 1, hn => stepAt3 V c ⟨n + 1, hn⟩ (outsAt3 c n (Nat.lt_of_succ_lt hn)).2

theorem outsAt3_A (c : Dev nD) (t : Fin cfg3.N) (h0 : t.val % 2 = 0) : outsAt3 V c t.val t.isLt = outA3 V c t h0 := by
  obtain ⟨n, hn⟩ := t
  cases n with
  | zero => exact (dif_pos h0 : stepAt3 V c ⟨0, hn⟩ (VS3.read (Elt F) VS3.junk) = _)
  | succ n => exact (dif_pos h0 : stepAt3 V c ⟨n + 1, hn⟩ (outsAt3 V c n (Nat.lt_of_succ_lt hn)).2 = _)

theorem outsAt3_B (c : Dev nD) (t : Fin cfg3.N) (h0 : ¬t.val % 2 = 0) :
    outsAt3 V c t.val t.isLt = outB3 V c t h0 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0 : stepAt3 V c ⟨n + 1, hn⟩ (outsAt3 V c n (Nat.lt_of_succ_lt hn)).2 = _)

def PhiS3 (c : Dev nD) : (n : ℕ) → n ≤ cfg3.N → sProp 𝕄
  | 0, _ => Pipeline.ΦA spec3 c
  | n + 1, hn => PhiX3 c (owns (c : Thread nD τ) scM3 fullShare (outsAt3 V c n hn).2)

theorem PhiS3_pos (c : Dev nD) (n : ℕ) (h : n ≤ cfg3.N) (hz : n ≠ 0) :
    PhiS3 V c n h = PhiX3 c (owns (c : Thread nD τ) scM3 fullShare (outsAt3 V c (n - 1) (by omega)).2) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem Phi_weak3 (c : Dev nD) (t : Fin (cfg3.N + 1)) :
    (dat3 V c).Φ t ⊢ PhiX3 c iprop(∃ d, owns (c : Thread nD τ) scM3 fullShare d) := by
  obtain ⟨n, hn⟩ := t
  cases n with
  | zero => show Pipeline.ΦA spec3 c ⊢ _; rw [PhiA3_eq]
  | succ n =>
    show PhiX3 c _ ⊢ _; unfold PhiX3
    iintro ⟨⟨HS0, Hrest⟩, Hg⟩
    iframe Hrest Hg
    iexists _; iexact HS0

theorem hout3 (c : Dev nD) : (dat3 V c).Φ (Fin.last cfg3.N) ⊢ Pipeline.ΦA spec3 c := by
  rw [PhiA3_eq]; exact Phi_weak3 V c _

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiX3 c (owns (c : Thread nD τ) scM3 fullShare (outsAt3 V c t.val t.isLt).2) from rfl]
  rw [show (dat3 V c).leavesExact 0 t = owns (c : Thread nD τ) (ms3_0 t) fullShare (iblk3 V c 0 t) from by
    unfold Dat.leavesExact; rw [liveAt3 0 t (by decide)]; rfl]
  rw [show (dat3 V c).leavesExact 1 t = owns (c : Thread nD τ) (ms3_1 t) fullShare (iblk3 V c 1 t) from by
    unfold Dat.leavesExact; rw [liveAt3 1 t (by decide)]; rfl]
  rw [show (dat3 V c).leavesExact 2 t = owns (c : Thread nD τ) (ms3_2 t) fullShare (iblk3 V c 2 t) from by
    unfold Dat.leavesExact; rw [liveAt3 2 t (by decide)]; rfl]
  by_cases h0 : t.val % 2 = 0
  · rw [Dat.leavesExact_idle (dat3 V c) 3 t (idleAt3_3_A t h0) (noFlush3_3_A t h0)]
    rw [outsAt3_A V c t h0]
    unfold outA3; dsimp only
    have hw := Phi_weak3 V c t.castSucc
    unfold PhiX3 at hw ⊢
    iintro ⟨HΦ, Ho, ⟨%d0, H0⟩, ⟨%d1, H1⟩, ⟨%d2, H2⟩, ⟨%d3, H3⟩⟩
    ihave HΦ' := hw $$ HΦ
    icases HΦ' with ⟨⟨HS0, Hrest⟩, Hg⟩
    iapply ((runA3 V c t h0).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover3_A V c t h0)
    iexists _; iexact H3
  · rw [show (dat3 V c).leavesExact 3 t = owns (c : Thread nD τ) (ms3_3 t) fullShare ((dat3 V c).after 3 t) from by
      unfold Dat.leavesExact; rw [liveAt3_3_B t h0], after3_3]
    rw [outsAt3_B V c t h0]
    unfold outB3; dsimp only
    have hz : t.val ≠ 0 := by omega
    rw [show (dat3 V c).Φ t.castSucc = PhiS3 V c t.val (Nat.le_of_lt t.isLt) from rfl, PhiS3_pos V c _ _ hz]; unfold PhiX3
    iintro ⟨⟨⟨HS0, Hrest⟩, Hg⟩, Ho, ⟨%d0, H0⟩, ⟨%d1, H1⟩, ⟨%d2, H2⟩, ⟨%d3, H3⟩⟩
    iapply ((runB3 V c t h0 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · unfold owns; iexists _; isplitr
      swap; · iexact HS0
      ipureintro; exact View.read_writes_of_cover _ _ _ _ _ (scover3_B V c t h0 _)
    unfold owns; iexists _; isplitr
    swap; · iexact H3
    ipureintro; exact View.read_writes_of_cover _ _ _ _ _ (cover3_B_3 V c t h0 _)

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Lin4.lean ====
import proofs.«414382_j4741643895756_3_alg».proof.Proof.Gen.Kernel.Launch
import proofs.«414382_j4741643895756_3_alg».proof.Proof.Gen.Kernel.Skeleton
import proofs.«414382_j4741643895756_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rx4 : Rect S1024x128 := Rect.unit (s := S1024x128) ![0, 0] S1024x128.size inb_S1024x128_S1024x128_0_0

abbrev rw4 : Rect S128x128 := Rect.unit (s := S128x128) ![0, 0] S128x128.size inb_S128x128_S128x128_0_0

def out4_2 (x0 : Vec F S1024x128 .bf16) (x1 : Vec F S128x128 .f32) : Vec F S1024x128 .bf16 :=
  View.canon [⟨rx4, k4_pay1 (View.ld x0 rx4) (View.ld x1 rw4)⟩]

theorem sound_kernel4 (c : Dev nD) (E : Set ℕ) (i : grid4.Coords) (arg0 : Memref sig .tc .vmem S1024x128 .bf16) (harg0 : arg0.IsWhole) (arg1 : Memref sig .tc .vmem S128x128 .f32) (harg1 : arg1.IsWhole) (arg2 : Memref sig .tc .vmem S1024x128 .bf16) (harg2 : arg2.IsWhole)
    (x0 : Vec F S1024x128 .bf16) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__linear_kernel i arg0 harg0 arg1 harg1 arg2 harg2) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Agg5.lean ====
import proofs.«414382_j4741643895756_3_alg».proof.Proof.Gen.Kernel.Launch
import proofs.«414382_j4741643895756_3_alg».proof.Proof.Gen.Kernel.Skeleton
import proofs.«414382_j4741643895756_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 2 = 0 :=
  (by decide +kernel : ∀ t : Fin grid5.N, cond5_0 (grid5.coords t) ↔ t.val % 2 = 0)

abbrev cond5_1 (i : grid5.Coords) : Prop := k5_cond2 i = 1#1

theorem hcond5_1 : ∀ t : Fin cfg5.N, cond5_1 (grid5.coords t) ↔ t.val % 2 = 1 :=
  (by decide +kernel : ∀ t : Fin grid5.N, cond5_1 (grid5.coords t) ↔ t.val % 2 = 1)

theorem liveAt5 : ∀ (w : Fin cfg5.W) (t : Fin cfg5.N), w ≠ 3 → cfg5.idle w (grid5.coords t) = false := by decide +kernel

theorem idleAt5_3_A : ∀ t : Fin cfg5.N, t.val % 2 = 0 → cfg5.idle 3 (grid5.coords t) = true := by decide +kernel

theorem noFlush5_3_A : ∀ t : Fin cfg5.N, t.val % 2 = 0 → (cfg5.win 3).flush t = false := by decide +kernel

theorem liveAt5_3_B : ∀ t : Fin cfg5.N, ¬t.val % 2 = 0 → cfg5.idle 3 (grid5.coords t) = false := by decide +kernel

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev VO5 : View sig .tc .vmem S1024x128 .f32 := (Memref.whole cc5_stg3_0 : Memref sig .tc .vmem S1024x128 .f32).view
abbrev ms5_0 (t : Fin cfg5.N) : Memref sig .tc .vmem S1024x5120 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5120x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)

abbrev scM5 : Memref sig .tc .vmem S1024x128 .f32 := Memref.whole cc5_scratch0
abbrev VS5 : View sig .tc .vmem S1024x128 .f32 := scM5.view

/-- The region's invariant with one scoped buffer split out and held as `P`. -/
def PhiX5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

theorem PhiA5_eq (c : Dev nD) : (Pipeline.ΦA spec5 c : sProp 𝕄) = PhiX5 c iprop(∃ d, owns (c : Thread nD τ) scM5 fullShare d) := by
  unfold PhiX5 Pipeline.ΦA; rw [scopedRest5_split]; simp only [scM5, owns_whole]; try rfl

section
variable (c : Dev nD) (i : grid5.Coords) (arg2 : Memref sig .tc .vmem S1024x5120 .bf16) (harg2 : arg2.IsWhole) (arg3 : Memref sig .tc .vmem S5120x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)

section
variable (hc0 : cond5_0 i) (hc1 : ¬cond5_1 i) (x0 : Vec F S1024x5120 .bf16) (x1 : Vec F S5120x128 .bf16) (x2 : Vec F S1x128 .f32)

noncomputable def kernelRun5_A :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__gcn_agg_kernel i arg2 harg2 arg3 harg3 arg4 harg4 arg5 harg5 arg6 harg6) K } := by
  refine ⟨[], ?_, fun xi3 E K => ?run⟩
  case run =>
    simp only [cc5__gcn_agg_kernel_eq_skeleton]; unfold cc5__gcn_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end

section
variable (hc0 : ¬cond5_0 i) (hc1 : cond5_1 i) (x0 : Vec F S1024x5120 .bf16) (x1 : Vec F S5120x128 .bf16) (x2 : Vec F S1x128 .f32) (xs0 : Vec F S1024x128 .f32)

noncomputable def kernelRun5_B :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__gcn_agg_kernel i arg2 harg2 arg3 harg3 arg4 harg4 arg5 harg5 arg6 harg6) K } := by
  refine ⟨?_, ?_, fun E K => ?run⟩
  case run =>
    simp only [cc5__gcn_agg_kernel_eq_skeleton]; unfold cc5__gcn_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end

def runA5 (c : Dev nD) (t : Fin cfg5.N) (h0 : t.val % 2 = 0) :=
  kernelRun5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => by have := (hcond5_1 t).mp h; omega) (iblk5 V c 0 t) (iblk5 V c 1 t) (iblk5 V c 2 t)

def runB5 (c : Dev nD) (t : Fin cfg5.N) (h0 : ¬t.val % 2 = 0) (xs0 : Vec F S1024x128 .f32) :=
  kernelRun5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr (by omega)) (iblk5 V c 0 t) (iblk5 V c 1 t) (iblk5 V c 2 t) xs0

theorem scover5_A (c : Dev nD) (t : Fin cfg5.N) (h0 : t.val % 2 = 0) (y : S1024x128.Idx) : ∃ pc ∈ (runA5 V c t h0).2.1, y ∈ pc.1.set :=
  View.cover_of_tiledL _ S1024x128.size (by sl_kernel_rfl) y

theorem cover5_B_3 (c : Dev nD) (t : Fin cfg5.N) (h0 : ¬t.val % 2 = 0) (xs0 : Vec F S1024x128 .f32) (y : S1024x128.Idx) :
    ∃ pc ∈ (runB5 V c t h0 xs0).1, y ∈ pc.1.set :=
  View.cover_of_tiledL _ S1024x128.size (by sl_kernel_rfl) y

theorem scover5_B (c : Dev nD) (t : Fin cfg5.N) (h0 : ¬t.val % 2 = 0) (xs0 : Vec F S1024x128 .f32) (y : S1024x128.Idx) :
    ∃ pc ∈ (runB5 V c t h0 xs0).2.1, y ∈ pc.1.set :=
  View.cover_of_tiledL _ S1024x128.size (by sl_kernel_rfl) y

def outA5 (c : Dev nD) (t : Fin cfg5.N) (h0 : t.val % 2 = 0) : Vec F S1024x128 .f32 × Vec F S1024x128 .f32 :=
  (VO5.read (Elt F) (VO5.writes (Elt F) VO5.junk (runA5 V c t h0).1), VS5.read (Elt F) (VS5.writes (Elt F) VS5.junk (runA5 V c t h0).2.1))

def outB5 (c : Dev nD) (t : Fin cfg5.N) (h0 : ¬t.val % 2 = 0) (xs0 : Vec F S1024x128 .f32) : Vec F S1024x128 .f32 × Vec F S1024x128 .f32 :=
  (VO5.read (Elt F) (VO5.writes (Elt F) VO5.junk (runB5 V c t h0 xs0).1), VS5.read (Elt F) (VS5.writes (Elt F) VS5.junk (runB5 V c t h0 xs0).2.1))

def stepAt5 (c : Dev nD) (t : Fin cfg5.N) (prev : Vec F S1024x128 .f32) : Vec F S1024x128 .f32 × Vec F S1024x128 .f32 :=
  if h0 : t.val % 2 = 0 then outA5 V c t h0 else outB5 V c t h0 prev

def outsAt5 (c : Dev nD) : (n : ℕ) → n < cfg5.N → Vec F S1024x128 .f32 × Vec F S1024x128 .f32
  | 0, hn => stepAt5 V c ⟨0, hn⟩ (VS5.read (Elt F) VS5.junk)
  | n + 1, hn => stepAt5 V c ⟨n + 1, hn⟩ (outsAt5 c n (Nat.lt_of_succ_lt hn)).2

theorem outsAt5_A (c : Dev nD) (t : Fin cfg5.N) (h0 : t.val % 2 = 0) : outsAt5 V c t.val t.isLt = outA5 V c t h0 := by
  obtain ⟨n, hn⟩ := t
  cases n with
  | zero => exact (dif_pos h0 : stepAt5 V c ⟨0, hn⟩ (VS5.read (Elt F) VS5.junk) = _)
  | succ n => exact (dif_pos h0 : stepAt5 V c ⟨n + 1, hn⟩ (outsAt5 V c n (Nat.lt_of_succ_lt hn)).2 = _)

theorem outsAt5_B (c : Dev nD) (t : Fin cfg5.N) (h0 : ¬t.val % 2 = 0) :
    outsAt5 V c t.val t.isLt = outB5 V c t h0 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0 : stepAt5 V c ⟨n + 1, hn⟩ (outsAt5 V c n (Nat.lt_of_succ_lt hn)).2 = _)

def PhiS5 (c : Dev nD) : (n : ℕ) → n ≤ cfg5.N → sProp 𝕄
  | 0, _ => Pipeline.ΦA spec5 c
  | n + 1, hn => PhiX5 c (owns (c : Thread nD τ) scM5 fullShare (outsAt5 V c n hn).2)

theorem PhiS5_pos (c : Dev nD) (n : ℕ) (h : n ≤ cfg5.N) (hz : n ≠ 0) :
    PhiS5 V c n h = PhiX5 c (owns (c : Thread nD τ) scM5 fullShare (outsAt5 V c (n - 1) (by omega)).2) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

theorem Phi_weak5 (c : Dev nD) (t : Fin (cfg5.N + 1)) :
    (dat5 V c).Φ t ⊢ PhiX5 c iprop(∃ d, owns (c : Thread nD τ) scM5 fullShare d) := by
  obtain ⟨n, hn⟩ := t
  cases n with
  | zero => show Pipeline.ΦA spec5 c ⊢ _; rw [PhiA5_eq]
  | succ n =>
    show PhiX5 c _ ⊢ _; unfold PhiX5
    iintro ⟨⟨HS0, Hrest⟩, Hg⟩
    iframe Hrest Hg
    iexists _; iexact HS0

theorem hout5 (c : Dev nD) : (dat5 V c).Φ (Fin.last cfg5.N) ⊢ Pipeline.ΦA spec5 c := by
  rw [PhiA5_eq]; exact Phi_weak5 V c _

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiX5 c (owns (c : Thread nD τ) scM5 fullShare (outsAt5 V c t.val t.isLt).2) from rfl]
  rw [show (dat5 V c).leavesExact 0 t = owns (c : Thread nD τ) (ms5_0 t) fullShare (iblk5 V c 0 t) from by
    unfold Dat.leavesExact; rw [liveAt5 0 t (by decide)]; rfl]
  rw [show (dat5 V c).leavesExact 1 t = owns (c : Thread nD τ) (ms5_1 t) fullShare (iblk5 V c 1 t) from by
    unfold Dat.leavesExact; rw [liveAt5 1 t (by decide)]; rfl]
  rw [show (dat5 V c).leavesExact 2 t = owns (c : Thread nD τ) (ms5_2 t) fullShare (iblk5 V c 2 t) from by
    unfold Dat.leavesExact; rw [liveAt5 2 t (by decide)]; rfl]
  by_cases h0 : t.val % 2 = 0
  · rw [Dat.leavesExact_idle (dat5 V c) 3 t (idleAt5_3_A t h0) (noFlush5_3_A t h0)]
    rw [outsAt5_A V c t h0]
    unfold outA5; dsimp only
    have hw := Phi_weak5 V c t.castSucc
    unfold PhiX5 at hw ⊢
    iintro ⟨HΦ, Ho, ⟨%d0, H0⟩, ⟨%d1, H1⟩, ⟨%d2, H2⟩, ⟨%d3, H3⟩⟩
    ihave HΦ' := hw $$ HΦ
    icases HΦ' with ⟨⟨HS0, Hrest⟩, Hg⟩
    iapply ((runA5 V c t h0).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover5_A V c t h0)
    iexists _; iexact H3
  · rw [show (dat5 V c).leavesExact 3 t = owns (c : Thread nD τ) (ms5_3 t) fullShare ((dat5 V c).after 3 t) from by
      unfold Dat.leavesExact; rw [liveAt5_3_B t h0], after5_3]
    rw [outsAt5_B V c t h0]
    unfold outB5; dsimp only
    have hz : t.val ≠ 0 := by omega
    rw [show (dat5 V c).Φ t.castSucc = PhiS5 V c t.val (Nat.le_of_lt t.isLt) from rfl, PhiS5_pos V c _ _ hz]; unfold PhiX5
    iintro ⟨⟨⟨HS0, Hrest⟩, Hg⟩, Ho, ⟨%d0, H0⟩, ⟨%d1, H1⟩, ⟨%d2, H2⟩, ⟨%d3, H3⟩⟩
    iapply ((runB5 V c t h0 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · unfold owns; iexists _; isplitr
      swap; · iexact HS0
      ipureintro; exact View.read_writes_of_cover _ _ _ _ _ (scover5_B V c t h0 _)
    unfold owns; iexists _; isplitr
    swap; · iexact H3
    ipureintro; exact View.read_writes_of_cover _ _ _ _ _ (cover5_B_3 V c t h0 _)

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Run.lean ====
import proofs.«414382_j4741643895756_3_alg».proof.Proof.Gen.Kernel.Regions
import proofs.«414382_j4741643895756_3_alg».proof.Proof.KB.Lin0
import proofs.«414382_j4741643895756_3_alg».proof.Proof.KB.Agg1
import proofs.«414382_j4741643895756_3_alg».proof.Proof.KB.Lin2
import proofs.«414382_j4741643895756_3_alg».proof.Proof.KB.Agg3
import proofs.«414382_j4741643895756_3_alg».proof.Proof.KB.Lin4
import proofs.«414382_j4741643895756_3_alg».proof.Proof.KB.Agg5
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev toV (W : Dev nD → Valuation τ sig (Elt F)) : (c : Dev nD) → (b : Ref sig .tc) → Buf (Elt F) ((c : Thread nD τ).loc b) :=
  fun c b => W c b

/-- What a pipelined call leaves: its arrays at their final contents, every other buffer as entered. -/
def wout {p : Fin 6} (d : (c : Dev nD) → Dat τ (Elt F) Unit ℕ (UR sig nD τ) ℕ (cfgs p) c) (W : Dev nD → Valuation τ sig (Elt F))
    (c : Dev nD) : Valuation τ sig (Elt F) :=
  Pipeline.withArrays (cfgs p).spec c (W c) fun w => (d c).arrAt w (cfgs p).N
theorem wout_arr {p : Fin 6} (lf : Pipeline.LaunchFacts (nD := nD) (τ := τ) cfgs p)
    (d : (c : Dev nD) → Dat τ (Elt F) Unit ℕ (UR sig nD τ) ℕ (cfgs p) c) (W : Dev nD → Valuation τ sig (Elt F)) (c : Dev nD) (w : Fin (cfgs p).W) :
    wout d W c (Proc.devRef .tc (Pipeline.arrRef (cfgs p).spec w)) = (d c).arrAt w (cfgs p).N :=
  Pipeline.withArrays_arr _ lf.win.arr_inj c _ _ w
theorem wout_of_ne {p : Fin 6} (d : (c : Dev nD) → Dat τ (Elt F) Unit ℕ (UR sig nD τ) ℕ (cfgs p) c) (W : Dev nD → Valuation τ sig (Elt F))
    (c : Dev nD) (b : Ref sig .tc) (hb : ∀ w, Pipeline.arrRef (cfgs p).spec w ≠ b) :
    wout d W c (Proc.devRef .tc b) = W c (Proc.devRef .tc b) :=
  Pipeline.withArrays_of_ne _ c _ _ b hb

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 := toV (W3 m ρ)
abbrev W4 := wout (p := 0) (dat0 (V3 m ρ)) (W3 m ρ)
abbrev W5 : Dev nD → Valuation τ sig (Elt F) := fun c => StableHlo.after hostOps1 (W4 m ρ c)
abbrev V5 := toV (W5 m ρ)
abbrev W6 := wout (p := 1) (dat1 (V5 m ρ)) (W5 m ρ)
abbrev V6 := toV (W6 m ρ)
abbrev W7 := wout (p := 2) (dat2 (V6 m ρ)) (W6 m ρ)
abbrev W8 : Dev nD → Valuation τ sig (Elt F) := fun c => StableHlo.after hostOps3 (W7 m ρ c)
abbrev V8 := toV (W8 m ρ)
abbrev W9 := wout (p := 3) (dat3 (V8 m ρ)) (W8 m ρ)
abbrev V9 := toV (W9 m ρ)
abbrev W10 := wout (p := 4) (dat4 (V9 m ρ)) (W9 m ρ)
abbrev W11 : Dev nD → Valuation τ sig (Elt F) := fun c => StableHlo.after hostOps5 (W10 m ρ c)
abbrev V11 := toV (W11 m ρ)
abbrev W12 := wout (p := 5) (dat5 (V11 m ρ)) (W11 m ρ)
abbrev W13 : Dev nD → Valuation τ sig (Elt F) := fun c => StableHlo.after hostOps6 (W12 m ρ c)

def pdats : (p : Fin 6) → (c : Dev nD) → Dat τ (Elt F) Unit ℕ (UR sig nD τ) ℕ (Pipeline.pin (pcfgs (F := F)) adm p) c
  | ⟨0, _⟩ => dat0 (V3 m ρ)
  | ⟨1, _⟩ => dat1 (V5 m ρ)
  | ⟨2, _⟩ => dat2 (V6 m ρ)
  | ⟨3, _⟩ => dat3 (V8 m ρ)
  | ⟨4, _⟩ => dat4 (V9 m ρ)
  | ⟨5, _⟩ => dat5 (V11 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-- A pipelined call entered with every unscoped buffer held at `W`: its arrays are split off, run through the call, and put back. -/
def mkReg {p : Fin 6} (lf : Pipeline.LaunchFacts (nD := nD) (τ := τ) cfgs p) (W : Dev nD → Valuation τ sig (Elt F))
    (hb : ∀ c, BodyObligation (pdats m ρ p c) (defs₀ (F := F)) Variants.none () Set.univ)
    (hA : ∀ c w, (pdats m ρ p c).A w = W c (Pipeline.arrRef (cfgs p).spec w) := by exact fun _ _ => rfl)
    (hq : ∀ c w, (pdats m ρ p c).q w = fullShare := by exact fun _ _ => rfl)
    (how : ∀ c t, (pdats m ρ p c).owed t = 0 := by exact fun _ _ => rfl)
    (hr : ∀ c x, x ∈ (pdats m ρ p c).recorded 0 := by exact fun _ _ => trivial)
    (h0 : ∀ c, Pipeline.ΦA (cfgs p).spec c ⊢ (pdats m ρ p c).Φ 0 := by exact fun _ => .rfl)
    (hN : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (W c) ∗ R c)
  post c := iprop(StableHlo.held (c : Thread nD τ) (Pipeline.ucRefs τ sig) (wout (p := p) (pdats m ρ p) W c) ∗ R c)
  X c := iprop(∃ r, prngReg c r)
  Y c := iprop(∃ r, prngReg c r)
  Z c := Pipeline.unscopedRest (Ix := Unit) (Name := ℕ) (U := UR sig nD τ) (Lvl := ℕ) (cfgs p).spec c (toV W c)
  hentry c := by
    rw [Pipeline.ownSems0_none, Pipeline.Dat.owesAt, how]
    have hsplit := Pipeline.arrays_of_unscopedBufs (p := p) (pcfgs (F := F)) adm (pdats m ρ) lf.win lf.arr_whole c
      ((pdats m ρ p c).share_full (hq c)) (toV W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hr c _)
      iexact HO
    isplitl [Hp]; · iexact Hp
    iexact Hrest
  hin c := by
    refine .trans ?_ (h0 c); unfold Pipeline.ΦA
    iintro ⟨Hp, -, Hr⟩
    isplitl [Hr]; · iexact Hr
    iexact Hp
  hout c := by
    rw [Pipeline.ownSems0_none]
    refine (hN c).trans ?_; unfold Pipeline.ΦA
    iintro ⟨Hr, Hp⟩
    isplitl [Hp]; · iexact Hp
    isplitr; · iempintro
    iexact Hr
  hexit c := by
    rw [Pipeline.Dat.owesAt, how]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (toV W c) (toV (wout (p := p) (pdats m ρ p) W) c) _
      (fun w => (wout_arr lf (pdats m ρ p) W c w).symm)
      fun b hb => wout_of_ne (pdats m ρ p) W c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := mkReg m ρ launch0 (W3 m ρ) (body_obligation0 (V3 m ρ))
def reg1 := mkReg m ρ launch1 (W5 m ρ) (body_obligation1 (V5 m ρ)) (hN := hout1 (V5 m ρ))
def reg2 := mkReg m ρ launch2 (W6 m ρ) (body_obligation2 (V6 m ρ))
def reg3 := mkReg m ρ launch3 (W8 m ρ) (body_obligation3 (V8 m ρ)) (hN := hout3 (V8 m ρ))
def reg4 := mkReg m ρ launch4 (W9 m ρ) (body_obligation4 (V9 m ρ))
def reg5 := mkReg m ρ launch5 (W11 m ρ) (body_obligation5 (V11 m ρ)) (hN := hout5 (V11 m ρ))

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.Hand

end
-- ==== Proof.KB.Keep.lean ====
import proofs.«414382_j4741643895756_3_alg».proof.Proof.KB.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A pipelined call leaves a buffer as entered unless one of its output windows writes it. -/
theorem wout_keep {p : Fin 6} (lf : Pipeline.LaunchFacts (nD := nD) (τ := τ) cfgs p)
    (d : (c : Dev nD) → Dat τ (Elt F) Unit ℕ (UR sig nD τ) ℕ (cfgs p) c) (W : Dev nD → Valuation τ sig (Elt F))
    (hA : ∀ c w, (d c).A w = W c (Proc.devRef .tc (Pipeline.arrRef (cfgs p).spec w))) (c : Dev nD) (r : Ref sig .tc)
    (h : ∀ w, Pipeline.arrRef (cfgs p).spec w = r → ((cfgs p).win w).isOut = false) :
    wout d W c (Proc.devRef .tc r) = W c (Proc.devRef .tc r) := by
  by_cases e : ∃ w, Pipeline.arrRef (cfgs p).spec w = r
  · obtain ⟨w, rfl⟩ := e
    exact (wout_arr lf d W c w).trans (((d c).arrAt_in w (h w rfl) _).trans (hA c w))
  · exact wout_of_ne d W c r fun w e' => e ⟨w, e'⟩

variable (m : (ℓ : Loc nD τ sig) → Buf (Elt F) ℓ) (ρ : Dev nD → PrngReg)

/-- No pipelined call has `r` behind an output window, and no host stretch writes it. -/
abbrev Kept (r : Ref sig .tc) : Prop :=
  (∀ (p : Fin 6) (w : Fin (cfgs p).W), Pipeline.arrRef (cfgs p).spec w = r → ((cfgs p).win w).isOut = false) ∧
    r ∉ hostOps0_W ∧ r ∉ hostOps0_1_W ∧ r ∉ hostOps0_2_W ∧ r ∉ hostOps1_W ∧ r ∉ hostOps3_W ∧ r ∉ hostOps5_W ∧ r ∉ hostOps6_W

variable (c : Dev nD) {r : Ref sig .tc} (h : Kept r)
include h

theorem W3_kept : W3 m ρ c (Proc.devRef .tc r) = m ((c : Thread nD τ).loc r) :=
  (StableHlo.after_of_writes_sub hostOps0_2 _ hostOps0_2_writes h.2.2.2.1).trans <|
    (StableHlo.after_of_writes_sub hostOps0_1 _ hostOps0_1_writes h.2.2.1).trans <|
      StableHlo.after_of_writes_sub hostOps0 _ hostOps0_writes h.2.1
theorem W4_kept : W4 m ρ c (Proc.devRef .tc r) = m ((c : Thread nD τ).loc r) :=
  (wout_keep launch0 _ _ (fun _ _ => rfl) c r (h.1 0)).trans (W3_kept m ρ c h)
theorem W6_kept : W6 m ρ c (Proc.devRef .tc r) = m ((c : Thread nD τ).loc r) :=
  (wout_keep launch1 _ _ (fun _ _ => rfl) c r (h.1 1)).trans <|
    (StableHlo.after_of_writes_sub hostOps1 _ hostOps1_writes h.2.2.2.2.1).trans (W4_kept m ρ c h)
theorem W7_kept : W7 m ρ c (Proc.devRef .tc r) = m ((c : Thread nD τ).loc r) :=
  (wout_keep launch2 _ _ (fun _ _ => rfl) c r (h.1 2)).trans (W6_kept m ρ c h)
theorem W9_kept : W9 m ρ c (Proc.devRef .tc r) = m ((c : Thread nD τ).loc r) :=
  (wout_keep launch3 _ _ (fun _ _ => rfl) c r (h.1 3)).trans <|
    (StableHlo.after_of_writes_sub hostOps3 _ hostOps3_writes h.2.2.2.2.2.1).trans (W7_kept m ρ c h)
theorem W10_kept : W10 m ρ c (Proc.devRef .tc r) = m ((c : Thread nD τ).loc r) :=
  (wout_keep launch4 _ _ (fun _ _ => rfl) c r (h.1 4)).trans (W9_kept m ρ c h)
theorem W13_kept : W13 m ρ c (Proc.devRef .tc r) = m ((c : Thread nD τ).loc r) :=
  (StableHlo.after_of_writes_sub hostOps6 _ hostOps6_writes h.2.2.2.2.2.2.2).trans <|
    (wout_keep launch5 _ _ (fun _ _ => rfl) c r (h.1 5)).trans <|
      (StableHlo.after_of_writes_sub hostOps5 _ hostOps5_writes h.2.2.2.2.2.2.1).trans (W10_kept m ρ c h)

omit h

/-- A final memory that holds the last boundary's contents holds every argument as launched. -/
theorem args_kept (s : MemSt nD τ sig (Elt F)) (hs : ∀ b ∈ Pipeline.ucRefs τ sig, s.mem (((c : Thread nD τ)).1, b) = W13 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  have k {r : Ref sig .tc} (hu : ¬ (Proc.devRef .tc r : DevRef τ sig).isScoped) (hk : Kept r) :
      s.mem ((c.tc : Thread nD τ).loc r) = m ((c.tc : Thread nD τ).loc r) := (hs _ (mem_uc r hu)).trans (W13_kept m ρ c hk)
  ⟨k (by decide) (by decide), k (by decide) (by decide), k (by decide) (by decide), k (by decide) (by decide),
    k (by decide) (by decide), k (by decide) (by decide), k (by decide) (by decide), k (by decide) (by decide)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m ρ c r.2 (h c)) (run_all m ρ)

end Cert.Kernel.Hand

end
-- ==== Proof.KI.Lin0.lean ====
import proofs.«414382_j4741643895756_3_alg».proof.Proof.Gen.KernelIdeal.Launch
import proofs.«414382_j4741643895756_3_alg».proof.Proof.Gen.KernelIdeal.Skeleton
import proofs.«414382_j4741643895756_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S1024x128 := Rect.unit (s := S1024x128) ![0, 0] S1024x128.size inb_S1024x128_S1024x128_0_0

abbrev rw0 : Rect S128x128 := Rect.unit (s := S128x128) ![0, 0] S128x128.size inb_S128x128_S128x128_0_0

def out0_2 (x0 : Vec F S1024x128 .f32) (x1 : Vec F S128x128 .f32) : Vec F S1024x128 .bf16 :=
  View.canon [⟨rx0, k0_pay1 (View.ld x0 rx0) (View.ld x1 rw0)⟩]

theorem sound_kernel0 (c : Dev nD) (E : Set ℕ) (i : grid0.Coords) (arg0 : Memref sig .tc .vmem S1024x128 .f32) (harg0 : arg0.IsWhole) (arg1 : Memref sig .tc .vmem S128x128 .f32) (harg1 : arg1.IsWhole) (arg2 : Memref sig .tc .vmem S1024x128 .bf16) (harg2 : arg2.IsWhole)
    (x0 : Vec F S1024x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Agg1.lean ====
import proofs.«414382_j4741643895756_3_alg».proof.Proof.Gen.KernelIdeal.Launch
import proofs.«414382_j4741643895756_3_alg».proof.Proof.Gen.KernelIdeal.Skeleton
import proofs.«414382_j4741643895756_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1

theorem hcond1_1 : ∀ t : Fin cfg1.N, cond1_1 (grid1.coords t) ↔ t.val % 2 = 1 :=
  (by decide +kernel : ∀ t : Fin grid1.N, cond1_1 (grid1.coords t) ↔ t.val % 2 = 1)

theorem liveAt1 : ∀ (w : Fin cfg1.W) (t : Fin cfg1.N), w ≠ 3 → cfg1.idle w (grid1.coords t) = false := by decide +kernel

theorem idleAt1_3_A : ∀ t : Fin cfg1.N, t.val % 2 = 0 → cfg1.idle 3 (grid1.coords t) = true := by decide +kernel

theorem noFlush1_3_A : ∀ t : Fin cfg1.N, t.val % 2 = 0 → (cfg1.win 3).flush t = false := by decide +kernel

theorem liveAt1_3_B : ∀ t : Fin cfg1.N, ¬t.val % 2 = 0 → cfg1.idle 3 (grid1.coords t) = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1 : View sig .tc .vmem S1024x128 .bf16 := (Memref.whole cc1_stg3_0 : Memref sig .tc .vmem S1024x128 .bf16).view
abbrev ms1_0 (t : Fin cfg1.N) : Memref sig .tc .vmem S1024x5120 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5120x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)

abbrev scM1 : Memref sig .tc .vmem S1024x128 .f32 := Memref.whole cc1_scratch0
abbrev VS1 : View sig .tc .vmem S1024x128 .f32 := scM1.view

/-- The region's invariant with one scoped buffer split out and held as `P`. -/
def PhiX1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = PhiX1 c iprop(∃ d, owns (c : Thread nD τ) scM1 fullShare d) := by
  unfold PhiX1 Pipeline.ΦA; rw [scopedRest1_split]; simp only [scM1, owns_whole]; try rfl

section
variable (c : Dev nD) (i : grid1.Coords) (arg2 : Memref sig .tc .vmem S1024x5120 .bf16) (harg2 : arg2.IsWhole) (arg3 : Memref sig .tc .vmem S5120x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole)

section
variable (hc0 : cond1_0 i) (hc1 : ¬cond1_1 i) (x0 : Vec F S1024x5120 .bf16) (x1 : Vec F S5120x128 .bf16) (x2 : Vec F S1x128 .f32)

noncomputable def kernelRun1_A :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨[], ?_, fun xi3 E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end

section
variable (hc0 : ¬cond1_0 i) (hc1 : cond1_1 i) (x0 : Vec F S1024x5120 .bf16) (x1 : Vec F S5120x128 .bf16) (x2 : Vec F S1x128 .f32) (xs0 : Vec F S1024x128 .f32)

noncomputable def kernelRun1_B :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨?_, ?_, fun E K => ?run⟩
  case run =>
    simp only [cc1__gcn_agg_kernel_eq_skeleton]; unfold cc1__gcn_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end

def runA1 (c : Dev nD) (t : Fin cfg1.N) (h0 : t.val % 2 = 0) :=
  kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => by have := (hcond1_1 t).mp h; omega) (iblk1 V c 0 t) (iblk1 V c 1 t) (iblk1 V c 2 t)

def runB1 (c : Dev nD) (t : Fin cfg1.N) (h0 : ¬t.val % 2 = 0) (xs0 : Vec F S1024x128 .f32) :=
  kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr (by omega)) (iblk1 V c 0 t) (iblk1 V c 1 t) (iblk1 V c 2 t) xs0

theorem scover1_A (c : Dev nD) (t : Fin cfg1.N) (h0 : t.val % 2 = 0) (y : S1024x128.Idx) : ∃ pc ∈ (runA1 V c t h0).2.1, y ∈ pc.1.set :=
  View.cover_of_tiledL _ S1024x128.size (by sl_kernel_rfl) y

theorem cover1_B_3 (c : Dev nD) (t : Fin cfg1.N) (h0 : ¬t.val % 2 = 0) (xs0 : Vec F S1024x128 .f32) (y : S1024x128.Idx) :
    ∃ pc ∈ (runB1 V c t h0 xs0).1, y ∈ pc.1.set :=
  View.cover_of_tiledL _ S1024x128.size (by sl_kernel_rfl) y

theorem scover1_B (c : Dev nD) (t : Fin cfg1.N) (h0 : ¬t.val % 2 = 0) (xs0 : Vec F S1024x128 .f32) (y : S1024x128.Idx) :
    ∃ pc ∈ (runB1 V c t h0 xs0).2.1, y ∈ pc.1.set :=
  View.cover_of_tiledL _ S1024x128.size (by sl_kernel_rfl) y

def outA1 (c : Dev nD) (t : Fin cfg1.N) (h0 : t.val % 2 = 0) : Vec F S1024x128 .bf16 × Vec F S1024x128 .f32 :=
  (VO1.read (Elt F) (VO1.writes (Elt F) VO1.junk (runA1 V c t h0).1), VS1.read (Elt F) (VS1.writes (Elt F) VS1.junk (runA1 V c t h0).2.1))

def outB1 (c : Dev nD) (t : Fin cfg1.N) (h0 : ¬t.val % 2 = 0) (xs0 : Vec F S1024x128 .f32) : Vec F S1024x128 .bf16 × Vec F S1024x128 .f32 :=
  (VO1.read (Elt F) (VO1.writes (Elt F) VO1.junk (runB1 V c t h0 xs0).1), VS1.read (Elt F) (VS1.writes (Elt F) VS1.junk (runB1 V c t h0 xs0).2.1))

def stepAt1 (c : Dev nD) (t : Fin cfg1.N) (prev : Vec F S1024x128 .f32) : Vec F S1024x128 .bf16 × Vec F S1024x128 .f32 :=
  if h0 : t.val % 2 = 0 then outA1 V c t h0 else outB1 V c t h0 prev

def outsAt1 (c : Dev nD) : (n : ℕ) → n < cfg1.N → Vec F S1024x128 .bf16 × Vec F S1024x128 .f32
  | 0, hn => stepAt1 V c ⟨0, hn⟩ (VS1.read (Elt F) VS1.junk)
  | n + 1, hn => stepAt1 V c ⟨n + 1, hn⟩ (outsAt1 c n (Nat.lt_of_succ_lt hn)).2

theorem outsAt1_A (c : Dev nD) (t : Fin cfg1.N) (h0 : t.val % 2 = 0) : outsAt1 V c t.val t.isLt = outA1 V c t h0 := by
  obtain ⟨n, hn⟩ := t
  cases n with
  | zero => exact (dif_pos h0 : stepAt1 V c ⟨0, hn⟩ (VS1.read (Elt F) VS1.junk) = _)
  | succ n => exact (dif_pos h0 : stepAt1 V c ⟨n + 1, hn⟩ (outsAt1 V c n (Nat.lt_of_succ_lt hn)).2 = _)

theorem outsAt1_B (c : Dev nD) (t : Fin cfg1.N) (h0 : ¬t.val % 2 = 0) :
    outsAt1 V c t.val t.isLt = outB1 V c t h0 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0 : stepAt1 V c ⟨n + 1, hn⟩ (outsAt1 V c n (Nat.lt_of_succ_lt hn)).2 = _)

def PhiS1 (c : Dev nD) : (n : ℕ) → n ≤ cfg1.N → sProp 𝕄
  | 0, _ => Pipeline.ΦA spec1 c
  | n + 1, hn => PhiX1 c (owns (c : Thread nD τ) scM1 fullShare (outsAt1 V c n hn).2)

theorem PhiS1_pos (c : Dev nD) (n : ℕ) (h : n ≤ cfg1.N) (hz : n ≠ 0) :
    PhiS1 V c n h = PhiX1 c (owns (c : Thread nD τ) scM1 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem Phi_weak1 (c : Dev nD) (t : Fin (cfg1.N + 1)) :
    (dat1 V c).Φ t ⊢ PhiX1 c iprop(∃ d, owns (c : Thread nD τ) scM1 fullShare d) := by
  obtain ⟨n, hn⟩ := t
  cases n with
  | zero => show Pipeline.ΦA spec1 c ⊢ _; rw [PhiA1_eq]
  | succ n =>
    show PhiX1 c _ ⊢ _; unfold PhiX1
    iintro ⟨⟨HS0, Hrest⟩, Hg⟩
    iframe Hrest Hg
    iexists _; iexact HS0

theorem hout1 (c : Dev nD) : (dat1 V c).Φ (Fin.last cfg1.N) ⊢ Pipeline.ΦA spec1 c := by
  rw [PhiA1_eq]; exact Phi_weak1 V c _

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiX1 c (owns (c : Thread nD τ) scM1 fullShare (outsAt1 V c t.val t.isLt).2) from rfl]
  rw [show (dat1 V c).leavesExact 0 t = owns (c : Thread nD τ) (ms1_0 t) fullShare (iblk1 V c 0 t) from by
    unfold Dat.leavesExact; rw [liveAt1 0 t (by decide)]; rfl]
  rw [show (dat1 V c).leavesExact 1 t = owns (c : Thread nD τ) (ms1_1 t) fullShare (iblk1 V c 1 t) from by
    unfold Dat.leavesExact; rw [liveAt1 1 t (by decide)]; rfl]
  rw [show (dat1 V c).leavesExact 2 t = owns (c : Thread nD τ) (ms1_2 t) fullShare (iblk1 V c 2 t) from by
    unfold Dat.leavesExact; rw [liveAt1 2 t (by decide)]; rfl]
  by_cases h0 : t.val % 2 = 0
  · rw [Dat.leavesExact_idle (dat1 V c) 3 t (idleAt1_3_A t h0) (noFlush1_3_A t h0)]
    rw [outsAt1_A V c t h0]
    unfold outA1; dsimp only
    have hw := Phi_weak1 V c t.castSucc
    unfold PhiX1 at hw ⊢
    iintro ⟨HΦ, Ho, ⟨%d0, H0⟩, ⟨%d1, H1⟩, ⟨%d2, H2⟩, ⟨%d3, H3⟩⟩
    ihave HΦ' := hw $$ HΦ
    icases HΦ' with ⟨⟨HS0, Hrest⟩, Hg⟩
    iapply ((runA1 V c t h0).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover1_A V c t h0)
    iexists _; iexact H3
  · rw [show (dat1 V c).leavesExact 3 t = owns (c : Thread nD τ) (ms1_3 t) fullShare ((dat1 V c).after 3 t) from by
      unfold Dat.leavesExact; rw [liveAt1_3_B t h0], after1_3]
    rw [outsAt1_B V c t h0]
    unfold outB1; dsimp only
    have hz : t.val ≠ 0 := by omega
    rw [show (dat1 V c).Φ t.castSucc = PhiS1 V c t.val (Nat.le_of_lt t.isLt) from rfl, PhiS1_pos V c _ _ hz]; unfold PhiX1
    iintro ⟨⟨⟨HS0, Hrest⟩, Hg⟩, Ho, ⟨%d0, H0⟩, ⟨%d1, H1⟩, ⟨%d2, H2⟩, ⟨%d3, H3⟩⟩
    iapply ((runB1 V c t h0 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · unfold owns; iexists _; isplitr
      swap; · iexact HS0
      ipureintro; exact View.read_writes_of_cover _ _ _ _ _ (scover1_B V c t h0 _)
    unfold owns; iexists _; isplitr
    swap; · iexact H3
    ipureintro; exact View.read_writes_of_cover _ _ _ _ _ (cover1_B_3 V c t h0 _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Lin2.lean ====
import proofs.«414382_j4741643895756_3_alg».proof.Proof.Gen.KernelIdeal.Launch
import proofs.«414382_j4741643895756_3_alg».proof.Proof.Gen.KernelIdeal.Skeleton
import proofs.«414382_j4741643895756_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rx2 : Rect S1024x128 := Rect.unit (s := S1024x128) ![0, 0] S1024x128.size inb_S1024x128_S1024x128_0_0

abbrev rw2 : Rect S128x128 := Rect.unit (s := S128x128) ![0, 0] S128x128.size inb_S128x128_S128x128_0_0

def out2_2 (x0 : Vec F S1024x128 .bf16) (x1 : Vec F S128x128 .f32) : Vec F S1024x128 .bf16 :=
  View.canon [⟨rx2, k2_pay1 (View.ld x0 rx2) (View.ld x1 rw2)⟩]

theorem sound_kernel2 (c : Dev nD) (E : Set ℕ) (i : grid2.Coords) (arg0 : Memref sig .tc .vmem S1024x128 .bf16) (harg0 : arg0.IsWhole) (arg1 : Memref sig .tc .vmem S128x128 .f32) (harg1 : arg1.IsWhole) (arg2 : Memref sig .tc .vmem S1024x128 .bf16) (harg2 : arg2.IsWhole)
    (x0 : Vec F S1024x128 .bf16) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Agg3.lean ====
import proofs.«414382_j4741643895756_3_alg».proof.Proof.Gen.KernelIdeal.Launch
import proofs.«414382_j4741643895756_3_alg».proof.Proof.Gen.KernelIdeal.Skeleton
import proofs.«414382_j4741643895756_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1

theorem hcond3_0 : ∀ t : Fin cfg3.N, cond3_0 (grid3.coords t) ↔ t.val % 2 = 0 :=
  (by decide +kernel : ∀ t : Fin grid3.N, cond3_0 (grid3.coords t) ↔ t.val % 2 = 0)

abbrev cond3_1 (i : grid3.Coords) : Prop := k3_cond2 i = 1#1

theorem hcond3_1 : ∀ t : Fin cfg3.N, cond3_1 (grid3.coords t) ↔ t.val % 2 = 1 :=
  (by decide +kernel : ∀ t : Fin grid3.N, cond3_1 (grid3.coords t) ↔ t.val % 2 = 1)

theorem liveAt3 : ∀ (w : Fin cfg3.W) (t : Fin cfg3.N), w ≠ 3 → cfg3.idle w (grid3.coords t) = false := by decide +kernel

theorem idleAt3_3_A : ∀ t : Fin cfg3.N, t.val % 2 = 0 → cfg3.idle 3 (grid3.coords t) = true := by decide +kernel

theorem noFlush3_3_A : ∀ t : Fin cfg3.N, t.val % 2 = 0 → (cfg3.win 3).flush t = false := by decide +kernel

theorem liveAt3_3_B : ∀ t : Fin cfg3.N, ¬t.val % 2 = 0 → cfg3.idle 3 (grid3.coords t) = false := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev VO3 : View sig .tc .vmem S1024x128 .bf16 := (Memref.whole cc3_stg3_0 : Memref sig .tc .vmem S1024x128 .bf16).view
abbrev ms3_0 (t : Fin cfg3.N) : Memref sig .tc .vmem S1024x5120 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5120x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .bf16 := win3_3.stage (cfg3.slots t 3)
abbrev hs3_3 (t : Fin cfg3.N) : (ms3_3 t).IsWhole := hstage3_3 ((cfg3.slots t 3).cast nbuf3_3)

abbrev scM3 : Memref sig .tc .vmem S1024x128 .f32 := Memref.whole cc3_scratch0
abbrev VS3 : View sig .tc .vmem S1024x128 .f32 := scM3.view

/-- The region's invariant with one scoped buffer split out and held as `P`. -/
def PhiX3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = PhiX3 c iprop(∃ d, owns (c : Thread nD τ) scM3 fullShare d) := by
  unfold PhiX3 Pipeline.ΦA; rw [scopedRest3_split]; simp only [scM3, owns_whole]; try rfl

section
variable (c : Dev nD) (i : grid3.Coords) (arg2 : Memref sig .tc .vmem S1024x5120 .bf16) (harg2 : arg2.IsWhole) (arg3 : Memref sig .tc .vmem S5120x128 .bf16) (harg3 : arg3.IsWhole) (arg4 : Memref sig .tc .vmem S1x128 .f32) (harg4 : arg4.IsWhole) (arg5 : Memref sig .tc .vmem S1024x128 .bf16) (harg5 : arg5.IsWhole) (arg6 : Memref sig .tc .vmem S1024x128 .f32) (harg6 : arg6.IsWhole)

section
variable (hc0 : cond3_0 i) (hc1 : ¬cond3_1 i) (x0 : Vec F S1024x5120 .bf16) (x1 : Vec F S5120x128 .bf16) (x2 : Vec F S1x128 .f32)

noncomputable def kernelRun3_A :
    Σ' (L3 : List (View.Piece (Elt F) S1024x128 .bf16)), { LS0 : List (View.Piece (Elt F) S1024x128 .f32) //
      ∀ (xi3 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_agg_kernel i arg2 harg2 arg3 harg3 arg4 harg4 arg5 harg5 arg6 harg6) K } := by
  refine ⟨[], ?_, fun xi3 E K => ?run⟩
  case run =>
    simp only [cc3__gcn_agg_kernel_eq_skeleton]; unfold cc3__gcn_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end

section
variable (hc0 : ¬cond3_0 i) (hc1 : cond3_1 i) (x0 : Vec F S1024x5120 .bf16) (x1 : Vec F S5120x128 .bf16) (x2 : Vec F S1x128 .f32) (xs0 : Vec F S1024x128 .f32)

noncomputable def kernelRun3_B :
    Σ' (L3 : List (View.Piece (Elt F) S1024x128 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__gcn_agg_kernel i arg2 harg2 arg3 harg3 arg4 harg4 arg5 harg5 arg6 harg6) K } := by
  refine ⟨?_, ?_, fun E K => ?run⟩
  case run =>
    simp only [cc3__gcn_agg_kernel_eq_skeleton]; unfold cc3__gcn_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end

def runA3 (c : Dev nD) (t : Fin cfg3.N) (h0 : t.val % 2 = 0) :=
  kernelRun3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => by have := (hcond3_1 t).mp h; omega) (iblk3 V c 0 t) (iblk3 V c 1 t) (iblk3 V c 2 t)

def runB3 (c : Dev nD) (t : Fin cfg3.N) (h0 : ¬t.val % 2 = 0) (xs0 : Vec F S1024x128 .f32) :=
  kernelRun3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr (by omega)) (iblk3 V c 0 t) (iblk3 V c 1 t) (iblk3 V c 2 t) xs0

theorem scover3_A (c : Dev nD) (t : Fin cfg3.N) (h0 : t.val % 2 = 0) (y : S1024x128.Idx) : ∃ pc ∈ (runA3 V c t h0).2.1, y ∈ pc.1.set :=
  View.cover_of_tiledL _ S1024x128.size (by sl_kernel_rfl) y

theorem cover3_B_3 (c : Dev nD) (t : Fin cfg3.N) (h0 : ¬t.val % 2 = 0) (xs0 : Vec F S1024x128 .f32) (y : S1024x128.Idx) :
    ∃ pc ∈ (runB3 V c t h0 xs0).1, y ∈ pc.1.set :=
  View.cover_of_tiledL _ S1024x128.size (by sl_kernel_rfl) y

theorem scover3_B (c : Dev nD) (t : Fin cfg3.N) (h0 : ¬t.val % 2 = 0) (xs0 : Vec F S1024x128 .f32) (y : S1024x128.Idx) :
    ∃ pc ∈ (runB3 V c t h0 xs0).2.1, y ∈ pc.1.set :=
  View.cover_of_tiledL _ S1024x128.size (by sl_kernel_rfl) y

def outA3 (c : Dev nD) (t : Fin cfg3.N) (h0 : t.val % 2 = 0) : Vec F S1024x128 .bf16 × Vec F S1024x128 .f32 :=
  (VO3.read (Elt F) (VO3.writes (Elt F) VO3.junk (runA3 V c t h0).1), VS3.read (Elt F) (VS3.writes (Elt F) VS3.junk (runA3 V c t h0).2.1))

def outB3 (c : Dev nD) (t : Fin cfg3.N) (h0 : ¬t.val % 2 = 0) (xs0 : Vec F S1024x128 .f32) : Vec F S1024x128 .bf16 × Vec F S1024x128 .f32 :=
  (VO3.read (Elt F) (VO3.writes (Elt F) VO3.junk (runB3 V c t h0 xs0).1), VS3.read (Elt F) (VS3.writes (Elt F) VS3.junk (runB3 V c t h0 xs0).2.1))

def stepAt3 (c : Dev nD) (t : Fin cfg3.N) (prev : Vec F S1024x128 .f32) : Vec F S1024x128 .bf16 × Vec F S1024x128 .f32 :=
  if h0 : t.val % 2 = 0 then outA3 V c t h0 else outB3 V c t h0 prev

def outsAt3 (c : Dev nD) : (n : ℕ) → n < cfg3.N → Vec F S1024x128 .bf16 × Vec F S1024x128 .f32
  | 0, hn => stepAt3 V c ⟨0, hn⟩ (VS3.read (Elt F) VS3.junk)
  | n + 1, hn => stepAt3 V c ⟨n + 1, hn⟩ (outsAt3 c n (Nat.lt_of_succ_lt hn)).2

theorem outsAt3_A (c : Dev nD) (t : Fin cfg3.N) (h0 : t.val % 2 = 0) : outsAt3 V c t.val t.isLt = outA3 V c t h0 := by
  obtain ⟨n, hn⟩ := t
  cases n with
  | zero => exact (dif_pos h0 : stepAt3 V c ⟨0, hn⟩ (VS3.read (Elt F) VS3.junk) = _)
  | succ n => exact (dif_pos h0 : stepAt3 V c ⟨n + 1, hn⟩ (outsAt3 V c n (Nat.lt_of_succ_lt hn)).2 = _)

theorem outsAt3_B (c : Dev nD) (t : Fin cfg3.N) (h0 : ¬t.val % 2 = 0) :
    outsAt3 V c t.val t.isLt = outB3 V c t h0 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0 : stepAt3 V c ⟨n + 1, hn⟩ (outsAt3 V c n (Nat.lt_of_succ_lt hn)).2 = _)

def PhiS3 (c : Dev nD) : (n : ℕ) → n ≤ cfg3.N → sProp 𝕄
  | 0, _ => Pipeline.ΦA spec3 c
  | n + 1, hn => PhiX3 c (owns (c : Thread nD τ) scM3 fullShare (outsAt3 V c n hn).2)

theorem PhiS3_pos (c : Dev nD) (n : ℕ) (h : n ≤ cfg3.N) (hz : n ≠ 0) :
    PhiS3 V c n h = PhiX3 c (owns (c : Thread nD τ) scM3 fullShare (outsAt3 V c (n - 1) (by omega)).2) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem Phi_weak3 (c : Dev nD) (t : Fin (cfg3.N + 1)) :
    (dat3 V c).Φ t ⊢ PhiX3 c iprop(∃ d, owns (c : Thread nD τ) scM3 fullShare d) := by
  obtain ⟨n, hn⟩ := t
  cases n with
  | zero => show Pipeline.ΦA spec3 c ⊢ _; rw [PhiA3_eq]
  | succ n =>
    show PhiX3 c _ ⊢ _; unfold PhiX3
    iintro ⟨⟨HS0, Hrest⟩, Hg⟩
    iframe Hrest Hg
    iexists _; iexact HS0

theorem hout3 (c : Dev nD) : (dat3 V c).Φ (Fin.last cfg3.N) ⊢ Pipeline.ΦA spec3 c := by
  rw [PhiA3_eq]; exact Phi_weak3 V c _

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiX3 c (owns (c : Thread nD τ) scM3 fullShare (outsAt3 V c t.val t.isLt).2) from rfl]
  rw [show (dat3 V c).leavesExact 0 t = owns (c : Thread nD τ) (ms3_0 t) fullShare (iblk3 V c 0 t) from by
    unfold Dat.leavesExact; rw [liveAt3 0 t (by decide)]; rfl]
  rw [show (dat3 V c).leavesExact 1 t = owns (c : Thread nD τ) (ms3_1 t) fullShare (iblk3 V c 1 t) from by
    unfold Dat.leavesExact; rw [liveAt3 1 t (by decide)]; rfl]
  rw [show (dat3 V c).leavesExact 2 t = owns (c : Thread nD τ) (ms3_2 t) fullShare (iblk3 V c 2 t) from by
    unfold Dat.leavesExact; rw [liveAt3 2 t (by decide)]; rfl]
  by_cases h0 : t.val % 2 = 0
  · rw [Dat.leavesExact_idle (dat3 V c) 3 t (idleAt3_3_A t h0) (noFlush3_3_A t h0)]
    rw [outsAt3_A V c t h0]
    unfold outA3; dsimp only
    have hw := Phi_weak3 V c t.castSucc
    unfold PhiX3 at hw ⊢
    iintro ⟨HΦ, Ho, ⟨%d0, H0⟩, ⟨%d1, H1⟩, ⟨%d2, H2⟩, ⟨%d3, H3⟩⟩
    ihave HΦ' := hw $$ HΦ
    icases HΦ' with ⟨⟨HS0, Hrest⟩, Hg⟩
    iapply ((runA3 V c t h0).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover3_A V c t h0)
    iexists _; iexact H3
  · rw [show (dat3 V c).leavesExact 3 t = owns (c : Thread nD τ) (ms3_3 t) fullShare ((dat3 V c).after 3 t) from by
      unfold Dat.leavesExact; rw [liveAt3_3_B t h0], after3_3]
    rw [outsAt3_B V c t h0]
    unfold outB3; dsimp only
    have hz : t.val ≠ 0 := by omega
    rw [show (dat3 V c).Φ t.castSucc = PhiS3 V c t.val (Nat.le_of_lt t.isLt) from rfl, PhiS3_pos V c _ _ hz]; unfold PhiX3
    iintro ⟨⟨⟨HS0, Hrest⟩, Hg⟩, Ho, ⟨%d0, H0⟩, ⟨%d1, H1⟩, ⟨%d2, H2⟩, ⟨%d3, H3⟩⟩
    iapply ((runB3 V c t h0 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · unfold owns; iexists _; isplitr
      swap; · iexact HS0
      ipureintro; exact View.read_writes_of_cover _ _ _ _ _ (scover3_B V c t h0 _)
    unfold owns; iexists _; isplitr
    swap; · iexact H3
    ipureintro; exact View.read_writes_of_cover _ _ _ _ _ (cover3_B_3 V c t h0 _)

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Lin4.lean ====
import proofs.«414382_j4741643895756_3_alg».proof.Proof.Gen.KernelIdeal.Launch
import proofs.«414382_j4741643895756_3_alg».proof.Proof.Gen.KernelIdeal.Skeleton
import proofs.«414382_j4741643895756_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rx4 : Rect S1024x128 := Rect.unit (s := S1024x128) ![0, 0] S1024x128.size inb_S1024x128_S1024x128_0_0

abbrev rw4 : Rect S128x128 := Rect.unit (s := S128x128) ![0, 0] S128x128.size inb_S128x128_S128x128_0_0

def out4_2 (x0 : Vec F S1024x128 .bf16) (x1 : Vec F S128x128 .f32) : Vec F S1024x128 .bf16 :=
  View.canon [⟨rx4, k4_pay1 (View.ld x0 rx4) (View.ld x1 rw4)⟩]

theorem sound_kernel4 (c : Dev nD) (E : Set ℕ) (i : grid4.Coords) (arg0 : Memref sig .tc .vmem S1024x128 .bf16) (harg0 : arg0.IsWhole) (arg1 : Memref sig .tc .vmem S128x128 .f32) (harg1 : arg1.IsWhole) (arg2 : Memref sig .tc .vmem S1024x128 .bf16) (harg2 : arg2.IsWhole)
    (x0 : Vec F S1024x128 .bf16) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__linear_kernel i arg0 harg0 arg1 harg1 arg2 harg2) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S1024x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Agg5.lean ====
import proofs.«414382_j4741643895756_3_alg».proof.Proof.Gen.KernelIdeal.Launch
import proofs.«414382_j4741643895756_3_alg».proof.Proof.Gen.KernelIdeal.Skeleton
import proofs.«414382_j4741643895756_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 1).val) 0#32)) 0#32) = 1#1

theorem hcond5_0 : ∀ t : Fin cfg5.N, cond5_0 (grid5.coords t) ↔ t.val % 2 = 0 :=
  (by decide +kernel : ∀ t : Fin grid5.N, cond5_0 (grid5.coords t) ↔ t.val % 2 = 0)

abbrev cond5_1 (i : grid5.Coords) : Prop := k5_cond2 i = 1#1

theorem hcond5_1 : ∀ t : Fin cfg5.N, cond5_1 (grid5.coords t) ↔ t.val % 2 = 1 :=
  (by decide +kernel : ∀ t : Fin grid5.N, cond5_1 (grid5.coords t) ↔ t.val % 2 = 1)

theorem liveAt5 : ∀ (w : Fin cfg5.W) (t : Fin cfg5.N), w ≠ 3 → cfg5.idle w (grid5.coords t) = false := by decide +kernel

theorem idleAt5_3_A : ∀ t : Fin cfg5.N, t.val % 2 = 0 → cfg5.idle 3 (grid5.coords t) = true := by decide +kernel

theorem noFlush5_3_A : ∀ t : Fin cfg5.N, t.val % 2 = 0 → (cfg5.win 3).flush t = false := by decide +kernel

theorem liveAt5_3_B : ∀ t : Fin cfg5.N, ¬t.val % 2 = 0 → cfg5.idle 3 (grid5.coords t) = false := by decide +kernel

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev VO5 : View sig .tc .vmem S1024x128 .f32 := (Memref.whole cc5_stg3_0 : Memref sig .tc .vmem S1024x128 .f32).view
abbrev ms5_0 (t : Fin cfg5.N) : Memref sig .tc .vmem S1024x5120 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5120x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x128 .f32 := win5_3.stage (cfg5.slots t 3)
abbrev hs5_3 (t : Fin cfg5.N) : (ms5_3 t).IsWhole := hstage5_3 ((cfg5.slots t 3).cast nbuf5_3)

abbrev scM5 : Memref sig .tc .vmem S1024x128 .f32 := Memref.whole cc5_scratch0
abbrev VS5 : View sig .tc .vmem S1024x128 .f32 := scM5.view

/-- The region's invariant with one scoped buffer split out and held as `P`. -/
def PhiX5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

theorem PhiA5_eq (c : Dev nD) : (Pipeline.ΦA spec5 c : sProp 𝕄) = PhiX5 c iprop(∃ d, owns (c : Thread nD τ) scM5 fullShare d) := by
  unfold PhiX5 Pipeline.ΦA; rw [scopedRest5_split]; simp only [scM5, owns_whole]; try rfl

section
variable (c : Dev nD) (i : grid5.Coords) (arg2 : Memref sig .tc .vmem S1024x5120 .bf16) (harg2 : arg2.IsWhole) (arg3 : Memref sig .tc .vmem S5120x128 .bf16) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole)

section
variable (hc0 : cond5_0 i) (hc1 : ¬cond5_1 i) (x0 : Vec F S1024x5120 .bf16) (x1 : Vec F S5120x128 .bf16) (x2 : Vec F S1x128 .f32)

noncomputable def kernelRun5_A :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5__gcn_agg_kernel i arg2 harg2 arg3 harg3 arg4 harg4 arg5 harg5 arg6 harg6) K } := by
  refine ⟨[], ?_, fun xi3 E K => ?run⟩
  case run =>
    simp only [cc5__gcn_agg_kernel_eq_skeleton]; unfold cc5__gcn_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end

section
variable (hc0 : ¬cond5_0 i) (hc1 : cond5_1 i) (x0 : Vec F S1024x5120 .bf16) (x1 : Vec F S5120x128 .bf16) (x2 : Vec F S1x128 .f32) (xs0 : Vec F S1024x128 .f32)

noncomputable def kernelRun5_B :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__gcn_agg_kernel i arg2 harg2 arg3 harg3 arg4 harg4 arg5 harg5 arg6 harg6) K } := by
  refine ⟨?_, ?_, fun E K => ?run⟩
  case run =>
    simp only [cc5__gcn_agg_kernel_eq_skeleton]; unfold cc5__gcn_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end

end

def runA5 (c : Dev nD) (t : Fin cfg5.N) (h0 : t.val % 2 = 0) :=
  kernelRun5_A c (grid5.coords t) (ms5_0 t) (hs5_0 t) (ms5_1 t) (hs5_1 t) (ms5_2 t) (hs5_2 t) (ms5_3 t) (hs5_3 t) scM5 (Memref.isWhole_whole _) ((hcond5_0 t).mpr h0) (fun h => by have := (hcond5_1 t).mp h; omega) (iblk5 V c 0 t) (iblk5 V c 1 t) (iblk5 V c 2 t)

def runB5 (c : Dev nD) (t : Fin cfg5.N) (h0 : ¬t.val % 2 = 0) (xs0 : Vec F S1024x128 .f32) :=
  kernelRun5_B c (grid5.coords t) (ms5_0 t) (hs5_0 t) (ms5_1 t) (hs5_1 t) (ms5_2 t) (hs5_2 t) (ms5_3 t) (hs5_3 t) scM5 (Memref.isWhole_whole _) (fun h => h0 ((hcond5_0 t).mp h)) ((hcond5_1 t).mpr (by omega)) (iblk5 V c 0 t) (iblk5 V c 1 t) (iblk5 V c 2 t) xs0

theorem scover5_A (c : Dev nD) (t : Fin cfg5.N) (h0 : t.val % 2 = 0) (y : S1024x128.Idx) : ∃ pc ∈ (runA5 V c t h0).2.1, y ∈ pc.1.set :=
  View.cover_of_tiledL _ S1024x128.size (by sl_kernel_rfl) y

theorem cover5_B_3 (c : Dev nD) (t : Fin cfg5.N) (h0 : ¬t.val % 2 = 0) (xs0 : Vec F S1024x128 .f32) (y : S1024x128.Idx) :
    ∃ pc ∈ (runB5 V c t h0 xs0).1, y ∈ pc.1.set :=
  View.cover_of_tiledL _ S1024x128.size (by sl_kernel_rfl) y

theorem scover5_B (c : Dev nD) (t : Fin cfg5.N) (h0 : ¬t.val % 2 = 0) (xs0 : Vec F S1024x128 .f32) (y : S1024x128.Idx) :
    ∃ pc ∈ (runB5 V c t h0 xs0).2.1, y ∈ pc.1.set :=
  View.cover_of_tiledL _ S1024x128.size (by sl_kernel_rfl) y

def outA5 (c : Dev nD) (t : Fin cfg5.N) (h0 : t.val % 2 = 0) : Vec F S1024x128 .f32 × Vec F S1024x128 .f32 :=
  (VO5.read (Elt F) (VO5.writes (Elt F) VO5.junk (runA5 V c t h0).1), VS5.read (Elt F) (VS5.writes (Elt F) VS5.junk (runA5 V c t h0).2.1))

def outB5 (c : Dev nD) (t : Fin cfg5.N) (h0 : ¬t.val % 2 = 0) (xs0 : Vec F S1024x128 .f32) : Vec F S1024x128 .f32 × Vec F S1024x128 .f32 :=
  (VO5.read (Elt F) (VO5.writes (Elt F) VO5.junk (runB5 V c t h0 xs0).1), VS5.read (Elt F) (VS5.writes (Elt F) VS5.junk (runB5 V c t h0 xs0).2.1))

def stepAt5 (c : Dev nD) (t : Fin cfg5.N) (prev : Vec F S1024x128 .f32) : Vec F S1024x128 .f32 × Vec F S1024x128 .f32 :=
  if h0 : t.val % 2 = 0 then outA5 V c t h0 else outB5 V c t h0 prev

def outsAt5 (c : Dev nD) : (n : ℕ) → n < cfg5.N → Vec F S1024x128 .f32 × Vec F S1024x128 .f32
  | 0, hn => stepAt5 V c ⟨0, hn⟩ (VS5.read (Elt F) VS5.junk)
  | n + 1, hn => stepAt5 V c ⟨n + 1, hn⟩ (outsAt5 c n (Nat.lt_of_succ_lt hn)).2

theorem outsAt5_A (c : Dev nD) (t : Fin cfg5.N) (h0 : t.val % 2 = 0) : outsAt5 V c t.val t.isLt = outA5 V c t h0 := by
  obtain ⟨n, hn⟩ := t
  cases n with
  | zero => exact (dif_pos h0 : stepAt5 V c ⟨0, hn⟩ (VS5.read (Elt F) VS5.junk) = _)
  | succ n => exact (dif_pos h0 : stepAt5 V c ⟨n + 1, hn⟩ (outsAt5 V c n (Nat.lt_of_succ_lt hn)).2 = _)

theorem outsAt5_B (c : Dev nD) (t : Fin cfg5.N) (h0 : ¬t.val % 2 = 0) :
    outsAt5 V c t.val t.isLt = outB5 V c t h0 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0 : stepAt5 V c ⟨n + 1, hn⟩ (outsAt5 V c n (Nat.lt_of_succ_lt hn)).2 = _)

def PhiS5 (c : Dev nD) : (n : ℕ) → n ≤ cfg5.N → sProp 𝕄
  | 0, _ => Pipeline.ΦA spec5 c
  | n + 1, hn => PhiX5 c (owns (c : Thread nD τ) scM5 fullShare (outsAt5 V c n hn).2)

theorem PhiS5_pos (c : Dev nD) (n : ℕ) (h : n ≤ cfg5.N) (hz : n ≠ 0) :
    PhiS5 V c n h = PhiX5 c (owns (c : Thread nD τ) scM5 fullShare (outsAt5 V c (n - 1) (by omega)).2) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

theorem Phi_weak5 (c : Dev nD) (t : Fin (cfg5.N + 1)) :
    (dat5 V c).Φ t ⊢ PhiX5 c iprop(∃ d, owns (c : Thread nD τ) scM5 fullShare d) := by
  obtain ⟨n, hn⟩ := t
  cases n with
  | zero => show Pipeline.ΦA spec5 c ⊢ _; rw [PhiA5_eq]
  | succ n =>
    show PhiX5 c _ ⊢ _; unfold PhiX5
    iintro ⟨⟨HS0, Hrest⟩, Hg⟩
    iframe Hrest Hg
    iexists _; iexact HS0

theorem hout5 (c : Dev nD) : (dat5 V c).Φ (Fin.last cfg5.N) ⊢ Pipeline.ΦA spec5 c := by
  rw [PhiA5_eq]; exact Phi_weak5 V c _

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiX5 c (owns (c : Thread nD τ) scM5 fullShare (outsAt5 V c t.val t.isLt).2) from rfl]
  rw [show (dat5 V c).leavesExact 0 t = owns (c : Thread nD τ) (ms5_0 t) fullShare (iblk5 V c 0 t) from by
    unfold Dat.leavesExact; rw [liveAt5 0 t (by decide)]; rfl]
  rw [show (dat5 V c).leavesExact 1 t = owns (c : Thread nD τ) (ms5_1 t) fullShare (iblk5 V c 1 t) from by
    unfold Dat.leavesExact; rw [liveAt5 1 t (by decide)]; rfl]
  rw [show (dat5 V c).leavesExact 2 t = owns (c : Thread nD τ) (ms5_2 t) fullShare (iblk5 V c 2 t) from by
    unfold Dat.leavesExact; rw [liveAt5 2 t (by decide)]; rfl]
  by_cases h0 : t.val % 2 = 0
  · rw [Dat.leavesExact_idle (dat5 V c) 3 t (idleAt5_3_A t h0) (noFlush5_3_A t h0)]
    rw [outsAt5_A V c t h0]
    unfold outA5; dsimp only
    have hw := Phi_weak5 V c t.castSucc
    unfold PhiX5 at hw ⊢
    iintro ⟨HΦ, Ho, ⟨%d0, H0⟩, ⟨%d1, H1⟩, ⟨%d2, H2⟩, ⟨%d3, H3⟩⟩
    ihave HΦ' := hw $$ HΦ
    icases HΦ' with ⟨⟨HS0, Hrest⟩, Hg⟩
    iapply ((runA5 V c t h0).2.2 _ Set.univ _)
    iframe H0 H1 H2 H3 HS0
    iintro ⟨H0, H1, H2, H3, ⟨%es0, HS0⟩⟩
    iframe Hrest Hg Ho H0 H1 H2
    isplitl [HS0]
    · unfold owns; iexists _; isplitr
      swap; · iexact HS0
      ipureintro; exact View.read_writes_of_cover _ _ _ _ _ (scover5_A V c t h0)
    iexists _; iexact H3
  · rw [show (dat5 V c).leavesExact 3 t = owns (c : Thread nD τ) (ms5_3 t) fullShare ((dat5 V c).after 3 t) from by
      unfold Dat.leavesExact; rw [liveAt5_3_B t h0], after5_3]
    rw [outsAt5_B V c t h0]
    unfold outB5; dsimp only
    have hz : t.val ≠ 0 := by omega
    rw [show (dat5 V c).Φ t.castSucc = PhiS5 V c t.val (Nat.le_of_lt t.isLt) from rfl, PhiS5_pos V c _ _ hz]; unfold PhiX5
    iintro ⟨⟨⟨HS0, Hrest⟩, Hg⟩, Ho, ⟨%d0, H0⟩, ⟨%d1, H1⟩, ⟨%d2, H2⟩, ⟨%d3, H3⟩⟩
    iapply ((runB5 V c t h0 _).2.2 Set.univ _)
    iframe H0 H1 H2 HS0
    isplitl [H3]; · iexists _; iexact H3
    iintro ⟨H0, H1, H2, ⟨%e3, H3⟩, ⟨%es0, HS0⟩⟩
    iframe Hrest Hg Ho H0 H1 H2
    isplitl [HS0]
    · unfold owns; iexists _; isplitr
      swap; · iexact HS0
      ipureintro; exact View.read_writes_of_cover _ _ _ _ _ (scover5_B V c t h0 _)
    unfold owns; iexists _; isplitr
    swap; · iexact H3
    ipureintro; exact View.read_writes_of_cover _ _ _ _ _ (cover5_B_3 V c t h0 _)

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«414382_j4741643895756_3_alg».proof.Proof.Gen.KernelIdeal.Regions
import proofs.«414382_j4741643895756_3_alg».proof.Proof.KI.Lin0
import proofs.«414382_j4741643895756_3_alg».proof.Proof.KI.Agg1
import proofs.«414382_j4741643895756_3_alg».proof.Proof.KI.Lin2
import proofs.«414382_j4741643895756_3_alg».proof.Proof.KI.Agg3
import proofs.«414382_j4741643895756_3_alg».proof.Proof.KI.Lin4
import proofs.«414382_j4741643895756_3_alg».proof.Proof.KI.Agg5
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev toV (W : Dev nD → Valuation τ sig (Elt F)) : (c : Dev nD) → (b : Ref sig .tc) → Buf (Elt F) ((c : Thread nD τ).loc b) :=
  fun c b => W c b

/-- What a pipelined call leaves: its arrays at their final contents, every other buffer as entered. -/
def wout {p : Fin 6} (d : (c : Dev nD) → Dat τ (Elt F) Unit ℕ (UR sig nD τ) ℕ (cfgs p) c) (W : Dev nD → Valuation τ sig (Elt F))
    (c : Dev nD) : Valuation τ sig (Elt F) :=
  Pipeline.withArrays (cfgs p).spec c (W c) fun w => (d c).arrAt w (cfgs p).N
theorem wout_arr {p : Fin 6} (lf : Pipeline.LaunchFacts (nD := nD) (τ := τ) cfgs p)
    (d : (c : Dev nD) → Dat τ (Elt F) Unit ℕ (UR sig nD τ) ℕ (cfgs p) c) (W : Dev nD → Valuation τ sig (Elt F)) (c : Dev nD) (w : Fin (cfgs p).W) :
    wout d W c (Proc.devRef .tc (Pipeline.arrRef (cfgs p).spec w)) = (d c).arrAt w (cfgs p).N :=
  Pipeline.withArrays_arr _ lf.win.arr_inj c _ _ w
theorem wout_of_ne {p : Fin 6} (d : (c : Dev nD) → Dat τ (Elt F) Unit ℕ (UR sig nD τ) ℕ (cfgs p) c) (W : Dev nD → Valuation τ sig (Elt F))
    (c : Dev nD) (b : Ref sig .tc) (hb : ∀ w, Pipeline.arrRef (cfgs p).spec w ≠ b) :
    wout d W c (Proc.devRef .tc b) = W c (Proc.devRef .tc b) :=
  Pipeline.withArrays_of_ne _ c _ _ b hb

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 := toV (W3 m ρ)
abbrev W4 := wout (p := 0) (dat0 (V3 m ρ)) (W3 m ρ)
abbrev W5 : Dev nD → Valuation τ sig (Elt F) := fun c => StableHlo.after hostOps1 (W4 m ρ c)
abbrev V5 := toV (W5 m ρ)
abbrev W6 := wout (p := 1) (dat1 (V5 m ρ)) (W5 m ρ)
abbrev V6 := toV (W6 m ρ)
abbrev W7 := wout (p := 2) (dat2 (V6 m ρ)) (W6 m ρ)
abbrev W8 : Dev nD → Valuation τ sig (Elt F) := fun c => StableHlo.after hostOps3 (W7 m ρ c)
abbrev V8 := toV (W8 m ρ)
abbrev W9 := wout (p := 3) (dat3 (V8 m ρ)) (W8 m ρ)
abbrev V9 := toV (W9 m ρ)
abbrev W10 := wout (p := 4) (dat4 (V9 m ρ)) (W9 m ρ)
abbrev W11 : Dev nD → Valuation τ sig (Elt F) := fun c => StableHlo.after hostOps5 (W10 m ρ c)
abbrev V11 := toV (W11 m ρ)
abbrev W12 := wout (p := 5) (dat5 (V11 m ρ)) (W11 m ρ)
abbrev W13 : Dev nD → Valuation τ sig (Elt F) := fun c => StableHlo.after hostOps6 (W12 m ρ c)

def pdats : (p : Fin 6) → (c : Dev nD) → Dat τ (Elt F) Unit ℕ (UR sig nD τ) ℕ (Pipeline.pin (pcfgs (F := F)) adm p) c
  | ⟨0, _⟩ => dat0 (V3 m ρ)
  | ⟨1, _⟩ => dat1 (V5 m ρ)
  | ⟨2, _⟩ => dat2 (V6 m ρ)
  | ⟨3, _⟩ => dat3 (V8 m ρ)
  | ⟨4, _⟩ => dat4 (V9 m ρ)
  | ⟨5, _⟩ => dat5 (V11 m ρ)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-- A pipelined call entered with every unscoped buffer held at `W`: its arrays are split off, run through the call, and put back. -/
def mkReg {p : Fin 6} (lf : Pipeline.LaunchFacts (nD := nD) (τ := τ) cfgs p) (W : Dev nD → Valuation τ sig (Elt F))
    (hb : ∀ c, BodyObligation (pdats m ρ p c) (defs₀ (F := F)) Variants.none () Set.univ)
    (hA : ∀ c w, (pdats m ρ p c).A w = W c (Pipeline.arrRef (cfgs p).spec w) := by exact fun _ _ => rfl)
    (hq : ∀ c w, (pdats m ρ p c).q w = fullShare := by exact fun _ _ => rfl)
    (how : ∀ c t, (pdats m ρ p c).owed t = 0 := by exact fun _ _ => rfl)
    (hr : ∀ c x, x ∈ (pdats m ρ p c).recorded 0 := by exact fun _ _ => trivial)
    (h0 : ∀ c, Pipeline.ΦA (cfgs p).spec c ⊢ (pdats m ρ p c).Φ 0 := by exact fun _ => .rfl)
    (hN : ∀ c, (pdats m ρ p c).Φ (Fin.last _) ⊢ Pipeline.ΦA (cfgs p).spec c := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (W c) ∗ R c)
  post c := iprop(StableHlo.held (c : Thread nD τ) (Pipeline.ucRefs τ sig) (wout (p := p) (pdats m ρ p) W c) ∗ R c)
  X c := iprop(∃ r, prngReg c r)
  Y c := iprop(∃ r, prngReg c r)
  Z c := Pipeline.unscopedRest (Ix := Unit) (Name := ℕ) (U := UR sig nD τ) (Lvl := ℕ) (cfgs p).spec c (toV W c)
  hentry c := by
    rw [Pipeline.ownSems0_none, Pipeline.Dat.owesAt, how]
    have hsplit := Pipeline.arrays_of_unscopedBufs (p := p) (pcfgs (F := F)) adm (pdats m ρ) lf.win lf.arr_whole c
      ((pdats m ρ p c).share_full (hq c)) (toV W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hr c _)
      iexact HO
    isplitl [Hp]; · iexact Hp
    iexact Hrest
  hin c := by
    refine .trans ?_ (h0 c); unfold Pipeline.ΦA
    iintro ⟨Hp, -, Hr⟩
    isplitl [Hr]; · iexact Hr
    iexact Hp
  hout c := by
    rw [Pipeline.ownSems0_none]
    refine (hN c).trans ?_; unfold Pipeline.ΦA
    iintro ⟨Hr, Hp⟩
    isplitl [Hp]; · iexact Hp
    isplitr; · iempintro
    iexact Hr
  hexit c := by
    rw [Pipeline.Dat.owesAt, how]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (toV W c) (toV (wout (p := p) (pdats m ρ p) W) c) _
      (fun w => (wout_arr lf (pdats m ρ p) W c w).symm)
      fun b hb => wout_of_ne (pdats m ρ p) W c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := mkReg m ρ launch0 (W3 m ρ) (body_obligation0 (V3 m ρ))
def reg1 := mkReg m ρ launch1 (W5 m ρ) (body_obligation1 (V5 m ρ)) (hN := hout1 (V5 m ρ))
def reg2 := mkReg m ρ launch2 (W6 m ρ) (body_obligation2 (V6 m ρ))
def reg3 := mkReg m ρ launch3 (W8 m ρ) (body_obligation3 (V8 m ρ)) (hN := hout3 (V8 m ρ))
def reg4 := mkReg m ρ launch4 (W9 m ρ) (body_obligation4 (V9 m ρ))
def reg5 := mkReg m ρ launch5 (W11 m ρ) (body_obligation5 (V11 m ρ)) (hN := hout5 (V11 m ρ))

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Hand

end
-- ==== Proof.KI.Keep.lean ====
import proofs.«414382_j4741643895756_3_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A pipelined call leaves a buffer as entered unless one of its output windows writes it. -/
theorem wout_keep {p : Fin 6} (lf : Pipeline.LaunchFacts (nD := nD) (τ := τ) cfgs p)
    (d : (c : Dev nD) → Dat τ (Elt F) Unit ℕ (UR sig nD τ) ℕ (cfgs p) c) (W : Dev nD → Valuation τ sig (Elt F))
    (hA : ∀ c w, (d c).A w = W c (Proc.devRef .tc (Pipeline.arrRef (cfgs p).spec w))) (c : Dev nD) (r : Ref sig .tc)
    (h : ∀ w, Pipeline.arrRef (cfgs p).spec w = r → ((cfgs p).win w).isOut = false) :
    wout d W c (Proc.devRef .tc r) = W c (Proc.devRef .tc r) := by
  by_cases e : ∃ w, Pipeline.arrRef (cfgs p).spec w = r
  · obtain ⟨w, rfl⟩ := e
    exact (wout_arr lf d W c w).trans (((d c).arrAt_in w (h w rfl) _).trans (hA c w))
  · exact wout_of_ne d W c r fun w e' => e ⟨w, e'⟩

variable (m : (ℓ : Loc nD τ sig) → Buf (Elt F) ℓ) (ρ : Dev nD → PrngReg)

/-- No pipelined call has `r` behind an output window, and no host stretch writes it. -/
abbrev Kept (r : Ref sig .tc) : Prop :=
  (∀ (p : Fin 6) (w : Fin (cfgs p).W), Pipeline.arrRef (cfgs p).spec w = r → ((cfgs p).win w).isOut = false) ∧
    r ∉ hostOps0_W ∧ r ∉ hostOps0_1_W ∧ r ∉ hostOps0_2_W ∧ r ∉ hostOps1_W ∧ r ∉ hostOps3_W ∧ r ∉ hostOps5_W ∧ r ∉ hostOps6_W

variable (c : Dev nD) {r : Ref sig .tc} (h : Kept r)
include h

theorem W3_kept : W3 m ρ c (Proc.devRef .tc r) = m ((c : Thread nD τ).loc r) :=
  (StableHlo.after_of_writes_sub hostOps0_2 _ hostOps0_2_writes h.2.2.2.1).trans <|
    (StableHlo.after_of_writes_sub hostOps0_1 _ hostOps0_1_writes h.2.2.1).trans <|
      StableHlo.after_of_writes_sub hostOps0 _ hostOps0_writes h.2.1
theorem W4_kept : W4 m ρ c (Proc.devRef .tc r) = m ((c : Thread nD τ).loc r) :=
  (wout_keep launch0 _ _ (fun _ _ => rfl) c r (h.1 0)).trans (W3_kept m ρ c h)
theorem W6_kept : W6 m ρ c (Proc.devRef .tc r) = m ((c : Thread nD τ).loc r) :=
  (wout_keep launch1 _ _ (fun _ _ => rfl) c r (h.1 1)).trans <|
    (StableHlo.after_of_writes_sub hostOps1 _ hostOps1_writes h.2.2.2.2.1).trans (W4_kept m ρ c h)
theorem W7_kept : W7 m ρ c (Proc.devRef .tc r) = m ((c : Thread nD τ).loc r) :=
  (wout_keep launch2 _ _ (fun _ _ => rfl) c r (h.1 2)).trans (W6_kept m ρ c h)
theorem W9_kept : W9 m ρ c (Proc.devRef .tc r) = m ((c : Thread nD τ).loc r) :=
  (wout_keep launch3 _ _ (fun _ _ => rfl) c r (h.1 3)).trans <|
    (StableHlo.after_of_writes_sub hostOps3 _ hostOps3_writes h.2.2.2.2.2.1).trans (W7_kept m ρ c h)
theorem W10_kept : W10 m ρ c (Proc.devRef .tc r) = m ((c : Thread nD τ).loc r) :=
  (wout_keep launch4 _ _ (fun _ _ => rfl) c r (h.1 4)).trans (W9_kept m ρ c h)
theorem W13_kept : W13 m ρ c (Proc.devRef .tc r) = m ((c : Thread nD τ).loc r) :=
  (StableHlo.after_of_writes_sub hostOps6 _ hostOps6_writes h.2.2.2.2.2.2.2).trans <|
    (wout_keep launch5 _ _ (fun _ _ => rfl) c r (h.1 5)).trans <|
      (StableHlo.after_of_writes_sub hostOps5 _ hostOps5_writes h.2.2.2.2.2.2.1).trans (W10_kept m ρ c h)

omit h

/-- A final memory that holds the last boundary's contents holds every argument as launched. -/
theorem args_kept (s : MemSt nD τ sig (Elt F)) (hs : ∀ b ∈ Pipeline.ucRefs τ sig, s.mem (((c : Thread nD τ)).1, b) = W13 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  have k {r : Ref sig .tc} (hu : ¬ (Proc.devRef .tc r : DevRef τ sig).isScoped) (hk : Kept r) :
      s.mem ((c.tc : Thread nD τ).loc r) = m ((c.tc : Thread nD τ).loc r) := (hs _ (mem_uc r hu)).trans (W13_kept m ρ c hk)
  ⟨k (by decide) (by decide), k (by decide) (by decide), k (by decide) (by decide), k (by decide) (by decide),
    k (by decide) (by decide), k (by decide) (by decide), k (by decide) (by decide), k (by decide) (by decide)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m ρ c r.2 (h c)) (run_all m ρ)

end Cert.KernelIdeal.Hand

end
-- ==== Proof.RefReadP.lean ====
import proofs.«414382_j4741643895756_3_alg».proof.Proof.RefRunP
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S10000, .i32⟩ : BufTy).Contents (Elt F) :=
  iotaInDim S10000 32 0

def val_main_v1 (x1 : (⟨S2x640000, .i32⟩ : BufTy).Contents (Elt F)) : (⟨S1x640000, .i32⟩ : BufTy).Contents (Elt F) :=
  extractStridedSlice S1x640000 ![0, 0] (x1) slices_S2x640000_S1x640000_0_0
abbrev idx_main_v1 (i : S1x640000.Idx) : S2x640000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v1_apply (x1 : (⟨S2x640000, .i32⟩ : BufTy).Contents (Elt F)) (i : S1x640000.Idx) :
    val_main_v1 (F := F) x1 i = x1 (idx_main_v1 i) := by
  unfold val_main_v1
  exact extractStridedSlice_apply ![0, 0] x1 slices_S2x640000_S1x640000_0_0 i (idx_main_v1 i) (fun a => match a with
    | ⟨0, _⟩ => by show (i 0).val = 0 + (i 0).val; omega
    | ⟨1, _⟩ => by show (i 1).val = 0 + (i 1).val; omega)

def val_main_v2 (x1 : (⟨S2x640000, .i32⟩ : BufTy).Contents (Elt F)) : (⟨S640000, .i32⟩ : BufTy).Contents (Elt F) :=
  shapeCast _ (val_main_v1 (F := F) x1) shapeCasts_S1x640000_S640000
abbrev idx_main_v2 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩
theorem val_main_v2_apply (x1 : (⟨S2x640000, .i32⟩ : BufTy).Contents (Elt F)) (i : S640000.Idx) :
    val_main_v2 (F := F) x1 i = val_main_v1 (F := F) x1 (idx_main_v2 i) := by
  unfold val_main_v2
  generalize val_main_v1 (F := F) x1 = y
  exact shapeCast_apply y shapeCasts_S1x640000_S640000 i (idx_main_v2 i)
    (by rewrite [Shape.rowMajor_val_two, Shape.rowMajor_val_one]; have h0 : (i 0).val < 640000 := (i 0).isLt; show 0 * 640000 + ((i 0).val) % 640000 = (i 0).val; omega)

def val_main_v3 (x1 : (⟨S2x640000, .i32⟩ : BufTy).Contents (Elt F)) : (⟨S650000, .i32⟩ : BufTy).Contents (Elt F) :=
  concatenate S650000 0 [⟨S640000, (val_main_v2 (F := F) x1)⟩, ⟨S10000, (val_main_v0 (F := F))⟩] concatenates_S640000_S10000_S650000_d0

def val_main_v4 (x1 : (⟨S2x640000, .i32⟩ : BufTy).Contents (Elt F)) : (⟨S1x640000, .i32⟩ : BufTy).Contents (Elt F) :=
  extractStridedSlice S1x640000 ![1, 0] (x1) slices_S2x640000_S1x640000_1_0
abbrev idx_main_v4 (i : S1x640000.Idx) : S2x640000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v4_apply (x1 : (⟨S2x640000, .i32⟩ : BufTy).Contents (Elt F)) (i : S1x640000.Idx) :
    val_main_v4 (F := F) x1 i = x1 (idx_main_v4 i) := by
  unfold val_main_v4
  exact extractStridedSlice_apply ![1, 0] x1 slices_S2x640000_S1x640000_1_0 i (idx_main_v4 i) (fun a => match a with
    | ⟨0, _⟩ => by show 1 + (i 0).val = 1 + (i 0).val; omega
    | ⟨1, _⟩ => by show (i 1).val = 0 + (i 1).val; omega)

def val_main_v5 (x1 : (⟨S2x640000, .i32⟩ : BufTy).Contents (Elt F)) : (⟨S640000, .i32⟩ : BufTy).Contents (Elt F) :=
  shapeCast _ (val_main_v4 (F := F) x1) shapeCasts_S1x640000_S640000
abbrev idx_main_v5 (i : S640000.Idx) : S1x640000.Idx := fun a => match a with
  | ⟨0, _⟩ => ⟨0, Nat.one_pos⟩
  | ⟨1, _⟩ => ⟨((i 0).val) % 640000, by have h0 : (i 0).val < 640000 := (i 0).isLt; show ((i 0).val) % 640000 < 640000; omega⟩
theorem val_main_v5_apply (x1 : (⟨S2x640000, .i32⟩ : BufTy).Contents (Elt F)) (i : S640000.Idx) :
    val_main_v5 (F := F) x1 i = val_main_v4 (F := F) x1 (idx_main_v5 i) := by
  unfold val_main_v5
  generalize val_main_v4 (F := F) x1 = y
  exact shapeCast_apply y shapeCasts_S1x640000_S640000 i (idx_main_v5 i)
    (by rewrite [Shape.rowMajor_val_two, Shape.rowMajor_val_one]; have h0 : (i 0).val < 640000 := (i 0).isLt; show 0 * 640000 + ((i 0).val) % 640000 = (i 0).val; omega)

def val_main_v6 (x1 : (⟨S2x640000, .i32⟩ : BufTy).Contents (Elt F)) : (⟨S650000, .i32⟩ : BufTy).Contents (Elt F) :=
  concatenate S650000 0 [⟨S640000, (val_main_v5 (F := F) x1)⟩, ⟨S10000, (val_main_v0 (F := F))⟩] concatenates_S640000_S10000_S650000_d0

def val_main_cst : (⟨S_, .f32⟩ : BufTy).Contents (Elt F) :=
  constant S_ .f32 0x3F800000#32

def val_main_v7 : (⟨S650000, .f32⟩ : BufTy).Contents (Elt F) :=
  broadcastInDim S650000 ![] bcast_S_S650000 (val_main_cst (F := F))

def val_main_cst_0 : (⟨S_, .f32⟩ : BufTy).Contents (Elt F) :=
  constant S_ .f32 0x00000000#32

def val_main_v8 : (⟨S10000, .f32⟩ : BufTy).Contents (Elt F) :=
  broadcastInDim S10000 ![] bcast_S_S10000 (val_main_cst_0 (F := F))

def val_main_v9 (x1 : (⟨S2x640000, .i32⟩ : BufTy).Contents (Elt F)) : (⟨S650000x1, .i32⟩ : BufTy).Contents (Elt F) :=
  broadcastInDim S650000x1 ![0] bcast_S650000_S650000x1_0 (val_main_v6 (F := F) x1)

def val_main_v10 (x1 : (⟨S2x640000, .i32⟩ : BufTy).Contents (Elt F)) : (⟨S10000, .f32⟩ : BufTy).Contents (Elt F) :=
  Host.scatterAdd scatter_S10000_S650000x1_S650000_n_0_0_1 (val_main_v8 (F := F)) (val_main_v9 (F := F) x1) (val_main_v7 (F := F))

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v11 : (⟨S10000, .f32⟩ : BufTy).Contents (Elt F) :=
  broadcastInDim S10000 ![] bcast_S_S10000 (val_main_cst_1 (F := F))
abbrev idx_main_v11 (i : S10000.Idx) : S_.Idx := fun a => a.elim0
theorem val_main_v11_apply (i : S10000.Idx) :
    val_main_v11 (F := F) i = val_main_cst_1 (F := F) (idx_main_v11 i) := by
  unfold val_main_v11
  generalize val_main_cst_1 (F := F) = y
  exact broadcastInDim_apply _ bcast_S_S10000 y i (idx_main_v11 i) (fun a => a.elim0)

def val_main_v12 (x1 : (⟨S2x640000, .i32⟩ : BufTy).Contents (Elt F)) : (⟨S10000, .i1⟩ : BufTy).Contents (Elt F) :=
  cmpf (F := F) .ogt (val_main_v10 (F := F) x1) (val_main_v11 (F := F))
theorem val_main_v12_apply (x1 : (⟨S2x640000, .i32⟩ : BufTy).Contents (Elt F)) (i : S10000.Idx) :
    val_main_v12 (F := F) x1 i = FloatOps.cmpf (F := F) .ogt (val_main_v10 (F := F) x1 i) (val_main_v11 (F := F) i) := rfl

def val_main_v13 (x1 : (⟨S2x640000, .i32⟩ : BufTy).Contents (Elt F)) : (⟨S10000, .f32⟩ : BufTy).Contents (Elt F) :=
  Host.rsqrt (val_main_v10 (F := F) x1)
theorem val_main_v13_apply (x1 : (⟨S2x640000, .i32⟩ : BufTy).Contents (Elt F)) (i : S10000.Idx) :
    val_main_v13 (F := F) x1 i = FloatOps.hostUnary .rsqrt (val_main_v10 (F := F) x1 i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl

def val_main_call0_v1 : (⟨S10000, .f32⟩ : BufTy).Contents (Elt F) :=
  broadcastInDim S10000 ![] bcast_S_S10000 (val_main_call0_v0 (F := F))
abbrev idx_main_call0_v1 (i : S10000.Idx) : S_.Idx := fun a => a.elim0
theorem val_main_call0_v1_apply (i : S10000.Idx) :
    val_main_call0_v1 (F := F) i = val_main_call0_v0 (F := F) (idx_main_call0_v1 i) := by
  unfold val_main_call0_v1
  generalize val_main_call0_v0 (F := F) = y
  exact broadcastInDim_apply _ bcast_S_S10000 y i (idx_main_call0_v1 i) (fun a => a.elim0)

def val_main_v14 (x1 : (⟨S2x640000, .i32⟩ : BufTy).Contents (Elt F)) : (⟨S10000, .f32⟩ : BufTy).Contents (Elt F) :=
  select (val_main_v12 (F := F) x1) (val_main_v13 (F := F) x1) (val_main_call0_v1 (F := F))
theorem val_main_v14_apply (x1 : (⟨S2x640000, .i32⟩ : BufTy).Contents (Elt F)) (i : S10000.Idx) :
    val_main_v14 (F := F) x1 i = Scalar.select (val_main_v12 (F := F) x1 i) (val_main_v13 (F := F) x1 i) (val_main_call0_v1 (F := F) i) := rfl

def val_main_c : (⟨S_, .i32⟩ : BufTy).Contents (Elt F) :=
  constantI S_ 32 0#32

def val_main_v15 : (⟨S650000, .i32⟩ : BufTy).Contents (Elt F) :=
  broadcastInDim S650000 ![] bcast_S_S650000 (val_main_c (F := F))

def val_main_v16 (x1 : (⟨S2x640000, .i32⟩ : BufTy).Contents (Elt F)) : (⟨S650000, .i1⟩ : BufTy).Contents (Elt F) :=
  cmpi .slt (val_main_v3 (F := F) x1) (val_main_v15 (F := F))

def val_main_c_3 : (⟨S_, .i32⟩ : BufTy).Contents (Elt F) :=
  constantI S_ 32 10000#32

def val_main_v17 : (⟨S650000, .i32⟩ : BufTy).Contents (Elt F) :=
  broadcastInDim S650000 ![] bcast_S_S650000 (val_main_c_3 (F := F))

def val_main_v18 (x1 : (⟨S2x640000, .i32⟩ : BufTy).Contents (Elt F)) : (⟨S650000, .i32⟩ : BufTy).Contents (Elt F) :=
  addi (val_main_v3 (F := F) x1) (val_main_v17 (F := F))

def val_main_v19 (x1 : (⟨S2x640000, .i32⟩ : BufTy).Contents (Elt F)) : (⟨S650000, .i32⟩ : BufTy).Contents (Elt F) :=
  select (val_main_v16 (F := F) x1) (val_main_v18 (F := F) x1) (val_main_v3 (F := F) x1)

def val_main_v20 (x1 : (⟨S2x640000, .i32⟩ : BufTy).Contents (Elt F)) : (⟨S650000x1, .i32⟩ : BufTy).Contents (Elt F) :=
  broadcastInDim S650000x1 ![0] bcast_S650000_S650000x1_0 (val_main_v19 (F := F) x1)

def val_main_v21 (x1 : (⟨S2x640000, .i32⟩ : BufTy).Contents (Elt F)) : (⟨S650000, .f32⟩ : BufTy).Contents (Elt F) :=
  Host.gather gather_S10000_S650000x1_S650000_n_0_n_n_0_1_1 (val_main_v14 (F := F) x1) (val_main_v20 (F := F) x1)

def val_main_c_4 : (⟨S_, .i32⟩ : BufTy).Contents (Elt F) :=
  constantI S_ 32 0#32

def val_main_v22 : (⟨S650000, .i32⟩ : BufTy).Contents (Elt F) :=
  broadcastInDim S650000 ![] bcast_S_S650000 (val_main_c_4 (F := F))

def val_main_v23 (x1 : (⟨S2x640000, .i32⟩ : BufTy).Contents (Elt F)) : (⟨S650000, .i1⟩ : BufTy).Contents (Elt F) :=
  cmpi .slt (val_main_v6 (F := F) x1) (val_main_v22 (F := F))

def val_main_c_5 : (⟨S_, .i32⟩ : BufTy).Contents (Elt F) :=
  constantI S_ 32 10000#32

def val_main_v24 : (⟨S650000, .i32⟩ : BufTy).Contents (Elt F) :=
  broadcastInDim S650000 ![] bcast_S_S650000 (val_main_c_5 (F := F))

def val_main_v25 (x1 : (⟨S2x640000, .i32⟩ : BufTy).Contents (Elt F)) : (⟨S650000, .i32⟩ : BufTy).Contents (Elt F) :=
  addi (val_main_v6 (F := F) x1) (val_main_v24 (F := F))

def val_main_v26 (x1 : (⟨S2x640000, .i32⟩ : BufTy).Contents (Elt F)) : (⟨S650000, .i32⟩ : BufTy).Contents (Elt F) :=
  select (val_main_v23 (F := F) x1) (val_main_v25 (F := F) x1) (val_main_v6 (F := F) x1)

def val_main_v27 (x1 : (⟨S2x640000, .i32⟩ : BufTy).Contents (Elt F)) : (⟨S650000x1, .i32⟩ : BufTy).Contents (Elt F) :=
  broadcastInDim S650000x1 ![0] bcast_S650000_S650000x1_0 (val_main_v26 (F := F) x1)

def val_main_v28 (x1 : (⟨S2x640000, .i32⟩ : BufTy).Contents (Elt F)) : (⟨S650000, .f32⟩ : BufTy).Contents (Elt F) :=
  Host.gather gather_S10000_S650000x1_S650000_n_0_n_n_0_1_1 (val_main_v14 (F := F) x1) (val_main_v27 (F := F) x1)

def val_main_v29 (x1 : (⟨S2x640000, .i32⟩ : BufTy).Contents (Elt F)) : (⟨S650000, .f32⟩ : BufTy).Contents (Elt F) :=
  mulf (val_main_v21 (F := F) x1) (val_main_v28 (F := F) x1)
theorem val_main_v29_apply (x1 : (⟨S2x640000, .i32⟩ : BufTy).Contents (Elt F)) (i : S650000.Idx) :
    val_main_v29 (F := F) x1 i = FloatOps.mulf (val_main_v21 (F := F) x1 i) (val_main_v28 (F := F) x1 i) := rfl

def val_main_v30 (x0 : (⟨S10000x128, .f32⟩ : BufTy).Contents (Elt F)) (x2 : (⟨S128x128, .f32⟩ : BufTy).Contents (Elt F)) : (⟨S10000x128, .f32⟩ : BufTy).Contents (Elt F) :=
  Host.dotGeneral dot_S10000x128_S128x128_S10000x128_1_0_0_1_n_n none (x0) (x2)
theorem lhs_main_v30_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_main_v30_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_main_v30_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_main_v30_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
abbrev lidx_main_v30 (i : S10000x128.Idx) (k : Fin 128) : S10000x128.Idx := fun a => match a with
  | ⟨0, _⟩ => ⟨(i 0).val, (i 0).isLt⟩
  | ⟨1, _⟩ => ⟨k.val, k.isLt⟩
abbrev ridx_main_v30 (i : S10000x128.Idx) (k : Fin 128) : S128x128.Idx := fun a => match a with
  | ⟨0, _⟩ => ⟨k.val, k.isLt⟩
  | ⟨1, _⟩ => ⟨(i 1).val, (i 1).isLt⟩

theorem val_main_v30_apply (x0 : (⟨S10000x128, .f32⟩ : BufTy).Contents (Elt Ideal)) (x2 : (⟨S128x128, .f32⟩ : BufTy).Contents (Elt Ideal)) (i : S10000x128.Idx) :
    val_main_v30 (F := Ideal) x0 x2 i = ∑ k : Fin 128, x0 (lidx_main_v30 i k) * x2 (ridx_main_v30 i k) := by
  unfold val_main_v30
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S10000x128_S128x128_S10000x128_1_0_0_1_n_n.rhsIdx i ((ValueIdx.contrEquiv1 dot_S10000x128_S128x128_S10000x128_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32
theorem val_main_c_6_apply (i : S_.Idx) :
    val_main_c_6 (F := F) i = 0#32 := rfl

def val_main_v31 : (⟨S650000, .i32⟩ : BufTy).Contents (Elt F) :=
  broadcastInDim S650000 ![] bcast_S_S650000 (val_main_c_6 (F := F))
abbrev idx_main_v31 (i : S650000.Idx) : S_.Idx := fun a => a.elim0
theorem val_main_v31_apply (i : S650000.Idx) :
    val_main_v31 (F := F) i = val_main_c_6 (F := F) (idx_main_v31 i) := by
  unfold val_main_v31
  generalize val_main_c_6 (F := F) = y
  exact broadcastInDim_apply _ bcast_S_S650000 y i (idx_main_v31 i) (fun a => a.elim0)

def val_main_v32 (x1 : (⟨S2x640000, .i32⟩ : BufTy).Contents (Elt F)) : (⟨S650000, .i1⟩ : BufTy).Contents (Elt F) :=
  cmpi .slt (val_main_v3 (F := F) x1) (val_main_v31 (F := F))
theorem val_main_v32_apply (x1 : (⟨S2x640000, .i32⟩ : BufTy).Contents (Elt F)) (i : S650000.Idx) :
    val_main_v32 (F := F) x1 i = IntOp.cmpi .slt (val_main_v3 (F := F) x1 i) (val_main_v31 (F := F) i) := rfl

def val_main_c_7 : (⟨S_, .i32⟩ : BufTy).Contents (Elt F) :=
  constantI S_ 32 10000#32

def val_main_v33 : (⟨S650000, .i32⟩ : BufTy).Contents (Elt F) :=
  broadcastInDim S650000 ![] bcast_S_S650000 (val_main_c_7 (F := F))

def val_main_v34 (x1 : (⟨S2x640000, .i32⟩ : BufTy).Contents (Elt F)) : (⟨S650000, .i32⟩ : BufTy).Contents (Elt F) :=
  addi (val_main_v3 (F := F) x1) (val_main_v33 (F := F))

def val_main_v35 (x1 : (⟨S2x640000, .i32⟩ : BufTy).Contents (Elt F)) : (⟨S650000, .i32⟩ : BufTy).Contents (Elt F) :=
  select (val_main_v32 (F := F) x1) (val_main_v34 (F := F) x1) (val_main_v3 (F := F) x1)
theorem val_main_v35_apply (x1 : (⟨S2x640000, .i32⟩ : BufTy).Contents (Elt F)) (i : S650000.Idx) :
    val_main_v35 (F := F) x1 i = Scalar.select (val_main_v32 (F := F) x1 i) (val_main_v34 (F := F) x1 i) (val_main_v3 (F := F) x1 i) := rfl

def val_main_v36 (x1 : (⟨S2x640000, .i32⟩ : BufTy).Contents (Elt F)) : (⟨S650000x1, .i32⟩ : BufTy).Contents (Elt F) :=
  broadcastInDim S650000x1 ![0] bcast_S650000_S650000x1_0 (val_main_v35 (F := F) x1)
abbrev idx_main_v36 (i : S650000x1.Idx) : S650000.Idx := fun a => match a with
  | ⟨0, _⟩ => ⟨(i 0).val, (i 0).isLt⟩
theorem val_main_v36_apply (x1 : (⟨S2x640000, .i32⟩ : BufTy).Contents (Elt F)) (i : S650000x1.Idx) :
    val_main_v36 (F := F) x1 i = val_main_v35 (F := F) x1 (idx_main_v36 i) := by
  unfold val_main_v36
  generalize val_main_v35 (F := F) x1 = y
  exact broadcastInDim_apply _ bcast_S650000_S650000x1_0 y i (idx_main_v36 i) (fun a => match a with
    | ⟨0, _⟩ => by show (i 0).val = if (650000 : Nat) = 1 then 0 else (i 0).val; rw [if_neg (by decide)])

def val_main_v37 (x0 : (⟨S10000x128, .f32⟩ : BufTy).Contents (Elt F)) (x1 : (⟨S2x640000, .i32⟩ : BufTy).Contents (Elt F)) (x2 : (⟨S128x128, .f32⟩ : BufTy).Contents (Elt F)) : (⟨S650000x128, .f32⟩ : BufTy).Contents (Elt F) :=
  Host.gather gather_S10000x128_S650000x1_S650000x128_1_0_n_n_0_1_1128 (val_main_v30 (F := F) x0 x2) (val_main_v36 (F := F) x1)

def val_main_v38 (x1 : (⟨S2x640000, .i32⟩ : BufTy).Contents (Elt F)) : (⟨S650000x1, .f32⟩ : BufTy).Contents (Elt F) :=
  broadcastInDim S650000x1 ![0] bcast_S650000_S650000x1_0 (val_main_v29 (F := F) x1)
abbrev idx_main_v38 (i : S650000x1.Idx) : S650000.Idx := fun a => match a with
  | ⟨0, _⟩ => ⟨(i 0).val, (i 0).isLt⟩
theorem val_main_v38_apply (x1 : (⟨S2x640000, .i32⟩ : BufTy).Contents (Elt F)) (i : S650000x1.Idx) :
    val_main_v38 (F := F) x1 i = val_main_v29 (F := F) x1 (idx_main_v38 i) := by
  unfold val_main_v38
  generalize val_main_v29 (F := F) x1 = y
  exact broadcastInDim_apply _ bcast_S650000_S650000x1_0 y i (idx_main_v38 i) (fun a => match a with
    | ⟨0, _⟩ => by show (i 0).val = if (650000 : Nat) = 1 then 0 else (i 0).val; rw [if_neg (by decide)])

def val_main_v39 (x1 : (⟨S2x640000, .i32⟩ : BufTy).Contents (Elt F)) : (⟨S650000x128, .f32⟩ : BufTy).Contents (Elt F) :=
  broadcastInDim S650000x128 ![0, 1] bcast_S650000x1_S650000x128_0_1 (val_main_v38 (F := F) x1)
abbrev idx_main_v39 (i : S650000x128.Idx) : S650000x1.Idx := fun a => match a with
  | ⟨0, _⟩ => ⟨(i 0).val, (i 0).isLt⟩
  | ⟨1, _⟩ => ⟨0, Nat.one_pos⟩
theorem val_main_v39_apply (x1 : (⟨S2x640000, .i32⟩ : BufTy).Contents (Elt F)) (i : S650000x128.Idx) :
    val_main_v39 (F := F) x1 i = val_main_v38 (F := F) x1 (idx_main_v39 i) := by
  unfold val_main_v39
  generalize val_main_v38 (F := F) x1 = y
  exact broadcastInDim_apply _ bcast_S650000x1_S650000x128_0_1 y i (idx_main_v39 i) (fun a => match a with
    | ⟨0, _⟩ => by show (i 0).val = if (650000 : Nat) = 1 then 0 else (i 0).val; rw [if_neg (by decide)]
    | ⟨1, _⟩ => by show 0 = if (1 : Nat) = 1 then 0 else (i 1).val; rw [if_pos rfl])

def val_main_v40 (x0 : (⟨S10000x128, .f32⟩ : BufTy).Contents (Elt F)) (x1 : (⟨S2x640000, .i32⟩ : BufTy).Contents (Elt F)) (x2 : (⟨S128x128, .f32⟩ : BufTy).Contents (Elt F)) : (⟨S650000x128, .f32⟩ : BufTy).Contents (Elt F) :=
  mulf (val_main_v37 (F := F) x0 x1 x2) (val_main_v39 (F := F) x1)
theorem val_main_v40_apply (x0 : (⟨S10000x128, .f32⟩ : BufTy).Contents (Elt F)) (x1 : (⟨S2x640000, .i32⟩ : BufTy).Contents (Elt F)) (x2 : (⟨S128x128, .f32⟩ : BufTy).Contents (Elt F)) (i : S650000x128.Idx) :
    val_main_v40 (F := F) x0 x1 x2 i = FloatOps.mulf (val_main_v37 (F := F) x0 x1 x2 i) (val_main_v39 (F := F) x1 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v41 : (⟨S10000x128, .f32⟩ : BufTy).Contents (Elt F) :=
  broadcastInDim S10000x128 ![] bcast_S_S10000x128 (val_main_cst_8 (F := F))
abbrev idx_main_v41 (i : S10000x128.Idx) : S_.Idx := fun a => a.elim0
theorem val_main_v41_apply (i : S10000x128.Idx) :
    val_main_v41 (F := F) i = val_main_cst_8 (F := F) (idx_main_v41 i) := by
  unfold val_main_v41
  generalize val_main_cst_8 (F := F) = y
  exact broadcastInDim_apply _ bcast_S_S10000x128 y i (idx_main_v41 i) (fun a => a.elim0)

def val_main_v42 (x1 : (⟨S2x640000, .i32⟩ : BufTy).Contents (Elt F)) : (⟨S650000x1, .i32⟩ : BufTy).Contents (Elt F) :=
  broadcastInDim S650000x1 ![0] bcast_S650000_S650000x1_0 (val_main_v6 (F := F) x1)
abbrev idx_main_v42 (i : S650000x1.Idx) : S650000.Idx := fun a => match a with
  | ⟨0, _⟩ => ⟨(i 0).val, (i 0).isLt⟩
theorem val_main_v42_apply (x1 : (⟨S2x640000, .i32⟩ : BufTy).Contents (Elt F)) (i : S650000x1.Idx) :
    val_main_v42 (F := F) x1 i = val_main_v6 (F := F) x1 (idx_main_v42 i) := by
  unfold val_main_v42
  generalize val_main_v6 (F := F) x1 = y
  exact broadcastInDim_apply _ bcast_S650000_S650000x1_0 y i (idx_main_v42 i) (fun a => match a with
    | ⟨0, _⟩ => by show (i 0).val = if (650000 : Nat) = 1 then 0 else (i 0).val; rw [if_neg (by decide)])

def val_main_v43 (x0 : (⟨S10000x128, .f32⟩ : BufTy).Contents (Elt F)) (x1 : (⟨S2x640000, .i32⟩ : BufTy).Contents (Elt F)) (x2 : (⟨S128x128, .f32⟩ : BufTy).Contents (Elt F)) : (⟨S10000x128, .f32⟩ : BufTy).Contents (Elt F) :=
  Host.scatterAdd scatter_S10000x128_S650000x1_S650000x128_1_0_0_1 (val_main_v41 (F := F)) (val_main_v42 (F := F) x1) (val_main_v40 (F := F) x0 x1 x2)

def val_main_v44 (x3 : (⟨S128, .f32⟩ : BufTy).Contents (Elt F)) : (⟨S1x128, .f32⟩ : BufTy).Contents (Elt F) :=
  broadcastInDim S1x128 ![1] bcast_S128_S1x128_1 (x3)
abbrev idx_main_v44 (i : S1x128.Idx) : S128.Idx := fun a => match a with
  | ⟨0, _⟩ => ⟨(i 1).val, (i 1).isLt⟩
theorem val_main_v44_apply (x3 : (⟨S128, .f32⟩ : BufTy).Contents (Elt F)) (i : S1x128.Idx) :
    val_main_v44 (F := F) x3 i = x3 (idx_main_v44 i) := by
  unfold val_main_v44
  exact broadcastInDim_apply _ bcast_S128_S1x128_1 x3 i (idx_main_v44 i) (fun a => match a with
    | ⟨0, _⟩ => by show (i 1).val = if (128 : Nat) = 1 then 0 else (i 1).val; rw [if_neg (by decide)])

def val_main_v45 (x3 : (⟨S128, .f32⟩ : BufTy).Contents (Elt F)) : (⟨S10000x128, .f32⟩ : BufTy).Contents (Elt F) :=
  broadcastInDim S10000x128 ![0, 1] bcast_S1x128_S10000x128_0_1 (val_main_v44 (F := F) x3)
abbrev idx_main_v45 (i : S10000x128.Idx) : S1x128.Idx := fun a => match a with
  | ⟨0, _⟩ => ⟨0, Nat.one_pos⟩
  | ⟨1, _⟩ => ⟨(i 1).val, (i 1).isLt⟩
theorem val_main_v45_apply (x3 : (⟨S128, .f32⟩ : BufTy).Contents (Elt F)) (i : S10000x128.Idx) :
    val_main_v45 (F := F) x3 i = val_main_v44 (F := F) x3 (idx_main_v45 i) := by
  unfold val_main_v45
  generalize val_main_v44 (F := F) x3 = y
  exact broadcastInDim_apply _ bcast_S1x128_S10000x128_0_1 y i (idx_main_v45 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v46 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S10000x128, .f32⟩ : BufTy).Contents (Elt F) :=
  addf (val_main_v43 (F := F) x0 x1 x2) (val_main_v45 (F := F) x3)
theorem val_main_v46_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (i : S10000x128.Idx) :
    val_main_v46 (F := F) x0 x1 x2 x3 i = FloatOps.addf (val_main_v43 (F := F) x0 x1 x2 i) (val_main_v45 (F := F) x3 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S10000x128, .f32⟩ : BufTy).Contents (Elt F) :=
  broadcastInDim S10000x128 ![] bcast_S_S10000x128 (val_main_call1_cst (F := F))
abbrev idx_main_call1_v0 (i : S10000x128.Idx) : S_.Idx := fun a => a.elim0
theorem val_main_call1_v0_apply (i : S10000x128.Idx) :
    val_main_call1_v0 (F := F) i = val_main_call1_cst (F := F) (idx_main_call1_v0 i) := by
  unfold val_main_call1_v0
  generalize val_main_call1_cst (F := F) = y
  exact broadcastInDim_apply _ bcast_S_S10000x128 y i (idx_main_call1_v0 i) (fun a => a.elim0)

def val_main_v47 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) : (⟨S10000x128, .f32⟩ : BufTy).Contents (Elt F) :=
  maximumf (val_main_v46 (F := F) x0 x1 x2 x3) (val_main_call1_v0 (F := F))
theorem val_main_v47_apply (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (i : S10000x128.Idx) :
    val_main_v47 (F := F) x0 x1 x2 x3 i = FloatOps.maximumf (val_main_v46 (F := F) x0 x1 x2 x3 i) (val_main_call1_v0 (F := F) i) := rfl

def val_main_v48 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) : (⟨S10000x128, .f32⟩ : BufTy).Contents (Elt F) :=
  Host.dotGeneral dot_S10000x128_S128x128_S10000x128_1_0_0_1_n_n none (val_main_v47 (F := F) x0 x1 x2 x3) (x4)

def val_main_c_9 : (⟨S_, .i32⟩ : BufTy).Contents (Elt F) :=
  constantI S_ 32 0#32

def val_main_v49 : (⟨S650000, .i32⟩ : BufTy).Contents (Elt F) :=
  broadcastInDim S650000 ![] bcast_S_S650000 (val_main_c_9 (F := F))

def val_main_v50 (x1 : (⟨S2x640000, .i32⟩ : BufTy).Contents (Elt F)) : (⟨S650000, .i1⟩ : BufTy).Contents (Elt F) :=
  cmpi .slt (val_main_v3 (F := F) x1) (val_main_v49 (F := F))

def val_main_c_10 : (⟨S_, .i32⟩ : BufTy).Contents (Elt F) :=
  constantI S_ 32 10000#32

def val_main_v51 : (⟨S650000, .i32⟩ : BufTy).Contents (Elt F) :=
  broadcastInDim S650000 ![] bcast_S_S650000 (val_main_c_10 (F := F))

def val_main_v52 (x1 : (⟨S2x640000, .i32⟩ : BufTy).Contents (Elt F)) : (⟨S650000, .i32⟩ : BufTy).Contents (Elt F) :=
  addi (val_main_v3 (F := F) x1) (val_main_v51 (F := F))

def val_main_v53 (x1 : (⟨S2x640000, .i32⟩ : BufTy).Contents (Elt F)) : (⟨S650000, .i32⟩ : BufTy).Contents (Elt F) :=
  select (val_main_v50 (F := F) x1) (val_main_v52 (F := F) x1) (val_main_v3 (F := F) x1)

def val_main_v54 (x1 : (⟨S2x640000, .i32⟩ : BufTy).Contents (Elt F)) : (⟨S650000x1, .i32⟩ : BufTy).Contents (Elt F) :=
  broadcastInDim S650000x1 ![0] bcast_S650000_S650000x1_0 (val_main_v53 (F := F) x1)

def val_main_v55 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) : (⟨S650000x128, .f32⟩ : BufTy).Contents (Elt F) :=
  Host.gather gather_S10000x128_S650000x1_S650000x128_1_0_n_n_0_1_1128 (val_main_v48 (F := F) x0 x1 x2 x3 x4) (val_main_v54 (F := F) x1)

def val_main_v56 (x1 : (⟨S2x640000, .i32⟩ : BufTy).Contents (Elt F)) : (⟨S650000x1, .f32⟩ : BufTy).Contents (Elt F) :=
  broadcastInDim S650000x1 ![0] bcast_S650000_S650000x1_0 (val_main_v29 (F := F) x1)

def val_main_v57 (x1 : (⟨S2x640000, .i32⟩ : BufTy).Contents (Elt F)) : (⟨S650000x128, .f32⟩ : BufTy).Contents (Elt F) :=
  broadcastInDim S650000x128 ![0, 1] bcast_S650000x1_S650000x128_0_1 (val_main_v56 (F := F) x1)

def val_main_v58 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) : (⟨S650000x128, .f32⟩ : BufTy).Contents (Elt F) :=
  mulf (val_main_v55 (F := F) x0 x1 x2 x3 x4) (val_main_v57 (F := F) x1)

def val_main_cst_11 : (⟨S_, .f32⟩ : BufTy).Contents (Elt F) :=
  constant S_ .f32 0x00000000#32

def val_main_v59 : (⟨S10000x128, .f32⟩ : BufTy).Contents (Elt F) :=
  broadcastInDim S10000x128 ![] bcast_S_S10000x128 (val_main_cst_11 (F := F))

def val_main_v60 (x1 : (⟨S2x640000, .i32⟩ : BufTy).Contents (Elt F)) : (⟨S650000x1, .i32⟩ : BufTy).Contents (Elt F) :=
  broadcastInDim S650000x1 ![0] bcast_S650000_S650000x1_0 (val_main_v6 (F := F) x1)

def val_main_v61 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) : (⟨S10000x128, .f32⟩ : BufTy).Contents (Elt F) :=
  Host.scatterAdd scatter_S10000x128_S650000x1_S650000x128_1_0_0_1 (val_main_v59 (F := F)) (val_main_v60 (F := F) x1) (val_main_v58 (F := F) x0 x1 x2 x3 x4)

def val_main_v62 (x5 : (⟨S128, .f32⟩ : BufTy).Contents (Elt F)) : (⟨S1x128, .f32⟩ : BufTy).Contents (Elt F) :=
  broadcastInDim S1x128 ![1] bcast_S128_S1x128_1 (x5)

def val_main_v63 (x5 : (⟨S128, .f32⟩ : BufTy).Contents (Elt F)) : (⟨S10000x128, .f32⟩ : BufTy).Contents (Elt F) :=
  broadcastInDim S10000x128 ![0, 1] bcast_S1x128_S10000x128_0_1 (val_main_v62 (F := F) x5)

def val_main_v64 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) : (⟨S10000x128, .f32⟩ : BufTy).Contents (Elt F) :=
  addf (val_main_v61 (F := F) x0 x1 x2 x3 x4) (val_main_v63 (F := F) x5)
def val_main_call2_cst : (⟨S_, .f32⟩ : BufTy).Contents (Elt F) :=
  constant S_ .f32 0x00000000#32
def val_main_call2_v0 : (⟨S10000x128, .f32⟩ : BufTy).Contents (Elt F) :=
  broadcastInDim S10000x128 ![] bcast_S_S10000x128 (val_main_call2_cst (F := F))

def val_main_v65 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) : (⟨S10000x128, .f32⟩ : BufTy).Contents (Elt F) :=
  maximumf (val_main_v64 (F := F) x0 x1 x2 x3 x4 x5) (val_main_call2_v0 (F := F))

def val_main_v66 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) : (⟨S10000x128, .f32⟩ : BufTy).Contents (Elt F) :=
  Host.dotGeneral dot_S10000x128_S128x128_S10000x128_1_0_0_1_n_n none (val_main_v65 (F := F) x0 x1 x2 x3 x4 x5) (x6)

def val_main_c_12 : (⟨S_, .i32⟩ : BufTy).Contents (Elt F) :=
  constantI S_ 32 0#32

def val_main_v67 : (⟨S650000, .i32⟩ : BufTy).Contents (Elt F) :=
  broadcastInDim S650000 ![] bcast_S_S650000 (val_main_c_12 (F := F))

def val_main_v68 (x1 : (⟨S2x640000, .i32⟩ : BufTy).Contents (Elt F)) : (⟨S650000, .i1⟩ : BufTy).Contents (Elt F) :=
  cmpi .slt (val_main_v3 (F := F) x1) (val_main_v67 (F := F))

def val_main_c_13 : (⟨S_, .i32⟩ : BufTy).Contents (Elt F) :=
  constantI S_ 32 10000#32

def val_main_v69 : (⟨S650000, .i32⟩ : BufTy).Contents (Elt F) :=
  broadcastInDim S650000 ![] bcast_S_S650000 (val_main_c_13 (F := F))

def val_main_v70 (x1 : (⟨S2x640000, .i32⟩ : BufTy).Contents (Elt F)) : (⟨S650000, .i32⟩ : BufTy).Contents (Elt F) :=
  addi (val_main_v3 (F := F) x1) (val_main_v69 (F := F))

def val_main_v71 (x1 : (⟨S2x640000, .i32⟩ : BufTy).Contents (Elt F)) : (⟨S650000, .i32⟩ : BufTy).Contents (Elt F) :=
  select (val_main_v68 (F := F) x1) (val_main_v70 (F := F) x1) (val_main_v3 (F := F) x1)

def val_main_v72 (x1 : (⟨S2x640000, .i32⟩ : BufTy).Contents (Elt F)) : (⟨S650000x1, .i32⟩ : BufTy).Contents (Elt F) :=
  broadcastInDim S650000x1 ![0] bcast_S650000_S650000x1_0 (val_main_v71 (F := F) x1)

def val_main_v73 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) : (⟨S650000x128, .f32⟩ : BufTy).Contents (Elt F) :=
  Host.gather gather_S10000x128_S650000x1_S650000x128_1_0_n_n_0_1_1128 (val_main_v66 (F := F) x0 x1 x2 x3 x4 x5 x6) (val_main_v72 (F := F) x1)

def val_main_v74 (x1 : (⟨S2x640000, .i32⟩ : BufTy).Contents (Elt F)) : (⟨S650000x1, .f32⟩ : BufTy).Contents (Elt F) :=
  broadcastInDim S650000x1 ![0] bcast_S650000_S650000x1_0 (val_main_v29 (F := F) x1)

def val_main_v75 (x1 : (⟨S2x640000, .i32⟩ : BufTy).Contents (Elt F)) : (⟨S650000x128, .f32⟩ : BufTy).Contents (Elt F) :=
  broadcastInDim S650000x128 ![0, 1] bcast_S650000x1_S650000x128_0_1 (val_main_v74 (F := F) x1)

def val_main_v76 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) : (⟨S650000x128, .f32⟩ : BufTy).Contents (Elt F) :=
  mulf (val_main_v73 (F := F) x0 x1 x2 x3 x4 x5 x6) (val_main_v75 (F := F) x1)

def val_main_cst_14 : (⟨S_, .f32⟩ : BufTy).Contents (Elt F) :=
  constant S_ .f32 0x00000000#32

def val_main_v77 : (⟨S10000x128, .f32⟩ : BufTy).Contents (Elt F) :=
  broadcastInDim S10000x128 ![] bcast_S_S10000x128 (val_main_cst_14 (F := F))

def val_main_v78 (x1 : (⟨S2x640000, .i32⟩ : BufTy).Contents (Elt F)) : (⟨S650000x1, .i32⟩ : BufTy).Contents (Elt F) :=
  broadcastInDim S650000x1 ![0] bcast_S650000_S650000x1_0 (val_main_v6 (F := F) x1)

def val_main_v79 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) : (⟨S10000x128, .f32⟩ : BufTy).Contents (Elt F) :=
  Host.scatterAdd scatter_S10000x128_S650000x1_S650000x128_1_0_0_1 (val_main_v77 (F := F)) (val_main_v78 (F := F) x1) (val_main_v76 (F := F) x0 x1 x2 x3 x4 x5 x6)

def val_main_v80 (x7 : (⟨S128, .f32⟩ : BufTy).Contents (Elt F)) : (⟨S1x128, .f32⟩ : BufTy).Contents (Elt F) :=
  broadcastInDim S1x128 ![1] bcast_S128_S1x128_1 (x7)

def val_main_v81 (x7 : (⟨S128, .f32⟩ : BufTy).Contents (Elt F)) : (⟨S10000x128, .f32⟩ : BufTy).Contents (Elt F) :=
  broadcastInDim S10000x128 ![0, 1] bcast_S1x128_S10000x128_0_1 (val_main_v80 (F := F) x7)

def val_main_v82 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S10000x128, .f32⟩ : BufTy).Contents (Elt F) :=
  addf (val_main_v79 (F := F) x0 x1 x2 x3 x4 x5 x6) (val_main_v81 (F := F) x7)
def val_main_call3_cst : (⟨S_, .f32⟩ : BufTy).Contents (Elt F) :=
  constant S_ .f32 0x00000000#32
def val_main_call3_v0 : (⟨S10000x128, .f32⟩ : BufTy).Contents (Elt F) :=
  broadcastInDim S10000x128 ![] bcast_S_S10000x128 (val_main_call3_cst (F := F))

def val_main_v83 (x0 : (⟨S10000x128, .f32⟩ : BufTy).Contents (Elt F)) (x1 : (⟨S2x640000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) : (⟨S10000x128, .f32⟩ : BufTy).Contents (Elt F) :=
  maximumf (val_main_v82 (F := F) x0 x1 x2 x3 x4 x5 x6 x7) (val_main_call3_v0 (F := F))

theorem val_main_v83_eq (m : (ℓ : Loc nD τ sig) → Buf (Elt F) ℓ) (c : Dev nD) :
    Cert.ReferenceIdeal.Value.res_main_v83 m c = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v83; rfl

end Cert.ReferenceIdeal.Read

end
-- ==== Proof.RefImports.lean ====
import proofs.«414382_j4741643895756_3_alg».proof.Proof.RefRunP
import proofs.«414382_j4741643895756_3_alg».proof.Proof.RefReadP
-- ==== Proof.Spec.lean ====
import Idealize.ShloMosaic.PureOps.Ideal

noncomputable section

open scoped BigOperators

namespace Cert.Spec

def lin {R : Nat} (h : Fin R → Fin 128 → EReal) (w : Fin 128 → Fin 128 → EReal) : Fin R → Fin 128 → EReal :=
  fun r j => ∑ k : Fin 128, h r k * w k j

def pad (h : Fin 10000 → Fin 128 → EReal) : Fin 10240 → Fin 128 → EReal :=
  fun r j => if hr : r.val < 10000 then h ⟨r.val, hr⟩ j else 0

def adj (src dst : Fin 650000 → Fin 10000) (norm : Fin 650000 → EReal) : Fin 10240 → Fin 10240 → EReal :=
  fun r s => ∑ e ∈ Finset.univ.filter (fun e : Fin 650000 => (dst e).val = r.val ∧ (src e).val = s.val), norm e

def aggK (A : Fin 10240 → Fin 10240 → EReal) (hw : Fin 10240 → Fin 128 → EReal) (b : Fin 128 → EReal) :
    Fin 10240 → Fin 128 → EReal :=
  fun r j => if r.val < 10000 then max ((∑ s : Fin 10240, A r s * hw s j) + b j) 0 else 0

def aggR (src dst : Fin 650000 → Fin 10000) (norm : Fin 650000 → EReal) (hw : Fin 10000 → Fin 128 → EReal)
    (b : Fin 128 → EReal) : Fin 10000 → Fin 128 → EReal :=
  fun d j => max ((∑ e ∈ Finset.univ.filter (fun e : Fin 650000 => dst e = d), hw (src e) j * norm e) + b j) 0

def layerK (A : Fin 10240 → Fin 10240 → EReal) (w : Fin 128 → Fin 128 → EReal) (b : Fin 128 → EReal)
    (hp : Fin 10240 → Fin 128 → EReal) : Fin 10240 → Fin 128 → EReal :=
  aggK A (lin hp w) b

def layerR (src dst : Fin 650000 → Fin 10000) (norm : Fin 650000 → EReal) (w : Fin 128 → Fin 128 → EReal)
    (b : Fin 128 → EReal) (h : Fin 10000 → Fin 128 → EReal) : Fin 10000 → Fin 128 → EReal :=
  aggR src dst norm (lin h w) b

def kernelOut (A : Fin 10240 → Fin 10240 → EReal) (x : Fin 10000 → Fin 128 → EReal)
    (w0 : Fin 128 → Fin 128 → EReal) (b0 : Fin 128 → EReal) (w1 : Fin 128 → Fin 128 → EReal) (b1 : Fin 128 → EReal)
    (w2 : Fin 128 → Fin 128 → EReal) (b2 : Fin 128 → EReal) : Fin 10000 → Fin 128 → EReal :=
  fun r j => layerK A w2 b2 (layerK A w1 b1 (layerK A w0 b0 (pad x))) ⟨r.val, Nat.lt_of_lt_of_le r.isLt (by decide)⟩ j

def refOut (src dst : Fin 650000 → Fin 10000) (norm : Fin 650000 → EReal) (x : Fin 10000 → Fin 128 → EReal)
    (w0 : Fin 128 → Fin 128 → EReal) (b0 : Fin 128 → EReal) (w1 : Fin 128 → Fin 128 → EReal) (b1 : Fin 128 → EReal)
    (w2 : Fin 128 → Fin 128 → EReal) (b2 : Fin 128 → EReal) : Fin 10000 → Fin 128 → EReal :=
  layerR src dst norm w2 b2 (layerR src dst norm w1 b1 (layerR src dst norm w0 b0 x))

end Cert.Spec

end
-- ==== Proof.Glue.lean ====
import proofs.«414382_j4741643895756_3_alg».proof.Proof.Spec
import proofs.«414382_j4741643895756_3_alg».proof.Proof.RefReadP
import Idealize.ShloMosaic.Lib.ValueIdx

noncomputable section

namespace Cert.Glue

open Idealize.ShloMosaic Idealize.ShloMosaic.ValueIdx Cert.ReferenceIdeal Cert.ReferenceIdeal.Read

abbrev EI : Type := (⟨S2x640000, .i32⟩ : BufTy).Contents (Elt Ideal)

def toMat {r c : Nat} (x : (⟨2, ![r, c]⟩ : Shape).Idx → EReal) : Fin r → Fin c → EReal := fun a b => x (ix2 a b)

def toVec {n : Nat} (x : (⟨1, ![n]⟩ : Shape).Idx → EReal) : Fin n → EReal := fun a => x (ix1 a)

def ofMat {r c : Nat} (f : Fin r → Fin c → EReal) : (⟨2, ![r, c]⟩ : Shape).Idx → EReal := fun i => f (i 0) (i 1)

def srcW (x1 : EI) (e : Fin 650000) : BitVec 32 := val_main_v3 (F := Ideal) x1 (ix1 e)

def dstW (x1 : EI) (e : Fin 650000) : BitVec 32 := val_main_v6 (F := Ideal) x1 (ix1 e)

def srcOf (x1 : EI) : Fin 650000 → Fin 10000 := fun e => ⟨(srcW x1 e).toNat % 10000, Nat.mod_lt _ (by decide)⟩

def dstOf (x1 : EI) : Fin 650000 → Fin 10000 := fun e => ⟨(dstW x1 e).toNat % 10000, Nat.mod_lt _ (by decide)⟩

def normOf (x1 : EI) : Fin 650000 → EReal := fun e => val_main_v29 (F := Ideal) x1 (ix1 e)

def InRange (x1 : EI) : Prop := ∀ i : S2x640000.Idx, 0 ≤ (x1 i : BitVec 32).toInt ∧ (x1 i : BitVec 32).toInt < 10000

def EdgesOk (x1 : EI) : Prop :=
  ∀ e : Fin 650000, (srcW x1 e).toInt = ((srcOf x1 e).val : Int) ∧ (dstW x1 e).toInt = ((dstOf x1 e).val : Int)

end Cert.Glue

end
-- ==== Proof.Algebra.lean ====
import proofs.«414382_j4741643895756_3_alg».proof.Proof.Spec

noncomputable section

open scoped BigOperators

namespace Cert.Spec

namespace DenseEdge

variable {src dst : Fin 650000 → Fin 10000} {norm : Fin 650000 → EReal} (h : Fin 10000 → Fin 128 → EReal) (w : Fin 128 → Fin 128 → EReal)

theorem rows_le_padded : 10000 ≤ 10240 := by decide

theorem sum_mul_of_nonneg {ι : Type} (s : Finset ι) (f : ι → EReal) (hf : ∀ i ∈ s, 0 ≤ f i) (c : EReal) :
    (∑ i ∈ s, f i) * c = ∑ i ∈ s, f i * c := by
  induction s using Finset.cons_induction with
  | empty => simp
  | cons a s ha ih =>
    have hs : ∀ i ∈ s, 0 ≤ f i := fun i hi => hf i (Finset.mem_cons.mpr (Or.inr hi))
    rw [Finset.sum_cons, Finset.sum_cons,
      EReal.right_distrib_of_nonneg (hf a (Finset.mem_cons_self a s)) (Finset.sum_nonneg hs), ih hs]

theorem lin_pad_castLE (s : Fin 10000) (j : Fin 128) : lin (pad h) w (Fin.castLE rows_le_padded s) j = lin h w s j := by
  unfold lin pad
  refine Finset.sum_congr rfl fun k _ => ?_
  have hs : (Fin.castLE rows_le_padded s).val < 10000 := s.isLt
  rw [dif_pos hs]
  rfl

theorem adj_row_sum (hnorm : ∀ e, 0 ≤ norm e) (r : Fin 10240) (hr : r.val < 10000) (j : Fin 128) :
    ∑ s : Fin 10240, adj src dst norm r s * lin (pad h) w s j
      = ∑ e ∈ Finset.univ.filter (fun e : Fin 650000 => dst e = ⟨r.val, hr⟩), lin h w (src e) j * norm e := by
  refine Eq.trans ?_ (Finset.sum_fiberwise _ (fun e => Fin.castLE rows_le_padded (src e)) _)
  refine Finset.sum_congr rfl fun s _ => ?_
  unfold adj
  rw [sum_mul_of_nonneg _ _ (fun e _ => hnorm e)]
  refine Finset.sum_congr (by ext e; simp [Fin.ext_iff]) fun e he => ?_
  rw [← (Finset.mem_filter.mp he).2, lin_pad_castLE, mul_comm]

theorem layerK_pad (hnorm : ∀ e, 0 ≤ norm e) (b : Fin 128 → EReal) :
    layerK (adj src dst norm) w b (pad h) = pad (layerR src dst norm w b h) := by
  funext r j
  show (if r.val < 10000 then max ((∑ s : Fin 10240, adj src dst norm r s * lin (pad h) w s j) + b j) 0 else 0)
    = if hr : r.val < 10000 then layerR src dst norm w b h ⟨r.val, hr⟩ j else 0
  by_cases hr : r.val < 10000
  · rw [if_pos hr, dif_pos hr, adj_row_sum h w hnorm r hr j]
    rfl
  · rw [if_neg hr, dif_neg hr]

end DenseEdge

theorem kernelOut_adj_eq_refOut (src dst : Fin 650000 → Fin 10000) (norm : Fin 650000 → EReal)
    (hnorm : ∀ e, 0 ≤ norm e) (x : Fin 10000 → Fin 128 → EReal) (w0 : Fin 128 → Fin 128 → EReal)
    (b0 : Fin 128 → EReal) (w1 : Fin 128 → Fin 128 → EReal) (b1 : Fin 128 → EReal)
    (w2 : Fin 128 → Fin 128 → EReal) (b2 : Fin 128 → EReal) :
    kernelOut (adj src dst norm) x w0 b0 w1 b1 w2 b2 = refOut src dst norm x w0 b0 w1 b1 w2 b2 := by
  funext r j
  unfold kernelOut refOut
  rw [DenseEdge.layerK_pad x w0 hnorm b0, DenseEdge.layerK_pad _ w1 hnorm b1, DenseEdge.layerK_pad _ w2 hnorm b2]
  unfold pad
  rw [dif_pos r.isLt]

end Cert.Spec

end
-- ==== Proof.KI.HostA.lean ====
import proofs.«414382_j4741643895756_3_alg».proof.Proof.Gen.KernelIdeal.Launch
import proofs.«414382_j4741643895756_3_alg».proof.Proof.Glue

noncomputable section

namespace Cert.KernelIdeal.Hand

open Cert.KernelIdeal Cert.KernelIdeal.Gen Cert.Glue Idealize.ShloMosaic Idealize.ShloMosaic.ValueIdx
open Idealize.ShloMosaic.StableHlo

namespace HostA

section Stages

variable {F : FTy → Type} [FloatOps F]

abbrev afterHost (V : Valuation τ sig (Elt F)) : Valuation τ sig (Elt F) :=
  StableHlo.after hostOps0_2 (StableHlo.after hostOps0_1 (StableHlo.after hostOps0 V))

def flatIdx (s d : (⟨S650000, .i32⟩ : BufTy).Contents (Elt F)) : (⟨S650000, .i32⟩ : BufTy).Contents (Elt F) :=
  select
    (cmpi .slt (addi (muli d (broadcastInDim S650000 ![] bcast_S_S650000 (constantI S_ 32 10240#32))) s)
      (broadcastInDim S650000 ![] bcast_S_S650000 (constantI S_ 32 0#32)))
    (addi (addi (muli d (broadcastInDim S650000 ![] bcast_S_S650000 (constantI S_ 32 10240#32))) s)
      (broadcastInDim S650000 ![] bcast_S_S650000 (constantI S_ 32 104857600#32)))
    (addi (muli d (broadcastInDim S650000 ![] bcast_S_S650000 (constantI S_ 32 10240#32))) s)

def adjOf (s d : (⟨S650000, .i32⟩ : BufTy).Contents (Elt F)) (n : (⟨S650000, .f32⟩ : BufTy).Contents (Elt F)) :
    (⟨S10240x10240, .bf16⟩ : BufTy).Contents (Elt F) :=
  truncf .bf16 (shapeCast S10240x10240
    (Host.scatterAdd scatter_S104857600_S650000x1_S650000_n_0_0_1
      (broadcastInDim S104857600 ![] bcast_S_S104857600 (constant (F := F) S_ .f32 0x00000000#32))
      (broadcastInDim S650000x1 ![0] bcast_S650000_S650000x1_0 (flatIdx (F := F) s d))
      n) shapeCasts_S104857600_S10240x10240) bitsLt_bf16_f32

set_option maxHeartbeats 2000000 in
theorem adj_stage (V : Valuation τ sig (Elt F)) :
    afterHost V (Proc.devRef .tc main_v42)
      = adjOf (F := F) (Cert.ReferenceIdeal.Read.val_main_v3 (F := F) (V (Proc.devRef .tc main_arg1)))
          (Cert.ReferenceIdeal.Read.val_main_v6 (F := F) (V (Proc.devRef .tc main_arg1)))
          (Cert.ReferenceIdeal.Read.val_main_v29 (F := F) (V (Proc.devRef .tc main_arg1))) := by
  simp only [afterHost, hostOps0_2, hostOps0_1, hostOps0]
  after_results_simp
  rfl

end Stages

theorem toNat_of_toInt (x : BitVec 32) (n : Nat) (h : x.toInt = (n : Int)) : x.toNat = n := by
  rw [BitVec.toInt_eq_toNat_cond] at h
  have := x.isLt
  split at h <;> omega

theorem flat_word (sw dw : BitVec 32) (sN dN : Nat) (hs : sw.toInt = (sN : Int)) (hd : dw.toInt = (dN : Int))
    (hsN : sN < 10000) (hdN : dN < 10000) :
    (Scalar.select (IntOp.cmpi .slt (IntOp.addi (IntOp.muli dw 10240#32) sw) 0#32)
        (IntOp.addi (IntOp.addi (IntOp.muli dw 10240#32) sw) 104857600#32)
        (IntOp.addi (IntOp.muli dw 10240#32) sw)).toInt = ((dN * 10240 + sN : Nat) : Int) := by
  have hs' := toNat_of_toInt sw sN hs
  have hd' := toNat_of_toInt dw dN hd
  have hf : (IntOp.addi (IntOp.muli dw 10240#32) sw).toNat = dN * 10240 + sN := by
    unfold IntOp.addi IntOp.muli
    rw [BitVec.toNat_add, BitVec.toNat_mul, hs', hd']
    show (dN * 10240 % 4294967296 + sN) % 4294967296 = _
    omega
  have hfi : (IntOp.addi (IntOp.muli dw 10240#32) sw).toInt = ((dN * 10240 + sN : Nat) : Int) := by
    rw [BitVec.toInt_eq_toNat_cond, hf, if_pos (by show 2 * (dN * 10240 + sN) < 4294967296; omega)]
  have hc : IntOp.cmpi .slt (IntOp.addi (IntOp.muli dw 10240#32) sw) 0#32 = 0#1 := by
    unfold IntOp.cmpi
    show BitVec.ofBool (BitVec.slt _ _) = 0#1
    rw [BitVec.slt_eq_decide, hfi]
    have : ¬ (((dN * 10240 + sN : Nat) : Int) < (0#32 : BitVec 32).toInt) := by
      show ¬ (((dN * 10240 + sN : Nat) : Int) < 0); omega
    rw [decide_eq_false this]; rfl
  rw [hc, select_zero, hfi]

/-- The one start index of update `e` is its index word read as a signed integer, and its window offset is zero. -/
theorem offset_eq (idx : IVec S650000x1 32) (e : Fin 650000) (a : Fin S104857600.rank) :
    scatter_S104857600_S650000x1_S650000_n_0_0_1.start (ix1 e) idx a + (scatter_S104857600_S650000x1_S650000_n_0_0_1.window (ix1 e) a : Int) = (idx (ix2 e (0 : Fin 1))).toInt := by
  obtain rfl : a = ⟨0, Nat.one_pos⟩ := Fin.ext (by have h1 : a.val < 1 := a.isLt; show a.val = 0; omega)
  unfold ScatterDims.start ScatterDims.window
  rw [dif_pos (show (⟨0, Nat.one_pos⟩ : Fin S104857600.rank) ∈ scatter_S104857600_S650000x1_S650000_n_0_0_1.scatterDimsToOperandDims by decide),
    dif_neg (show (⟨0, Nat.one_pos⟩ : Fin S104857600.rank) ∉ scatter_S104857600_S650000x1_S650000_n_0_0_1.sKept by decide)]
  refine (Int.add_zero _).trans (congrArg (fun i => (idx i).toInt) (funext fun b => ?_))
  match b with
  | ⟨0, _⟩ => rfl
  | ⟨1, _⟩ => rfl

theorem resultIdx_iff (idx : IVec S650000x1 32) (e : Fin 650000) (p : Fin 104857600) :
    scatter_S104857600_S650000x1_S650000_n_0_0_1.resultIdx? (ix1 e) idx = some (ix1 p)
      ↔ (idx (ix2 e (0 : Fin 1))).toInt = (p.val : Int) := by
  have hp := p.isLt
  unfold ScatterDims.resultIdx?
  split
  · rename_i h
    have h0 : 0 ≤ (idx (ix2 e (0 : Fin 1))).toInt ∧ (idx (ix2 e (0 : Fin 1))).toInt < ((104857600 : Nat) : Int) :=
      offset_eq idx e ⟨0, Nat.one_pos⟩ ▸ h ⟨0, Nat.one_pos⟩
    rw [Option.some.injEq]
    constructor
    · intro hf
      have h1 : (scatter_S104857600_S650000x1_S650000_n_0_0_1.start (ix1 e) idx ⟨0, Nat.one_pos⟩ + (scatter_S104857600_S650000x1_S650000_n_0_0_1.window (ix1 e) ⟨0, Nat.one_pos⟩ : Int)).toNat = p.val :=
        congrArg (fun f => (f ⟨0, Nat.one_pos⟩).val) hf
      rw [offset_eq] at h1
      omega
    · intro hi
      funext a
      match a with
      | ⟨0, _⟩ =>
        refine Fin.ext ?_
        show (scatter_S104857600_S650000x1_S650000_n_0_0_1.start (ix1 e) idx ⟨0, _⟩ + (scatter_S104857600_S650000x1_S650000_n_0_0_1.window (ix1 e) ⟨0, _⟩ : Int)).toNat = p.val
        rw [offset_eq]
        omega
  · rename_i h
    refine ⟨fun hf => absurd hf (by simp), fun hi => absurd (fun a => ?_) h⟩
    rw [offset_eq, hi]
    match a with
    | ⟨0, _⟩ => exact ⟨by omega, by show ((p.val : Nat) : Int) < ((104857600 : Nat) : Int); omega⟩

def idxEquiv1 {n : Nat} : Fin n ≃ (⟨1, ![n]⟩ : Shape).Idx where
  toFun := ix1
  invFun j := j 0
  left_inv _ := rfl
  right_inv j := (eq_ix1 j).symm

theorem sum_filter_idx1 {n : Nat} (P : (⟨1, ![n]⟩ : Shape).Idx → Prop) [DecidablePred P] (Q : Fin n → Prop)
    [DecidablePred Q] (f : (⟨1, ![n]⟩ : Shape).Idx → EReal) (h : ∀ e, P (ix1 e) ↔ Q e) :
    ∑ j ∈ Finset.univ.filter P, f j = ∑ e ∈ Finset.univ.filter Q, f (ix1 e) := by
  rw [Finset.sum_filter, Finset.sum_filter, ← Equiv.sum_comp (idxEquiv1 (n := n))]
  refine Finset.sum_congr rfl fun e _ => ?_
  show (if P (ix1 e) then f (ix1 e) else 0) = _
  exact if_congr (h e) rfl rfl

theorem idx_apply (f : IVec S650000 32) (e : Fin 650000) :
    broadcastInDim S650000x1 ![0] bcast_S650000_S650000x1_0 f (ix2 e (0 : Fin 1)) = f (ix1 e) :=
  broadcastInDim_apply _ bcast_S650000_S650000x1_0 f _ (ix1 e) (fun a => match a with
    | ⟨0, _⟩ => by show e.val = if (650000 : Nat) = 1 then 0 else e.val; rw [if_neg (by decide)])

theorem adjOf_value (x1 : EI) (hok : EdgesOk x1) :
    adjOf (F := Ideal) (Cert.ReferenceIdeal.Read.val_main_v3 (F := Ideal) x1)
        (Cert.ReferenceIdeal.Read.val_main_v6 (F := Ideal) x1) (Cert.ReferenceIdeal.Read.val_main_v29 (F := Ideal) x1)
      = ofMat (Spec.adj (srcOf x1) (dstOf x1) (normOf x1)) := by
  funext j
  obtain ⟨r, c, rfl⟩ : ∃ (r : Fin 10240) (c : Fin 10240), j = ix2 r c := ⟨j 0, j 1, eq_ix2 j⟩
  have hr := r.isLt
  have hc := c.isLt
  have hp : r.val * 10240 + c.val < 104857600 := by omega
  unfold adjOf
  rw [truncf_apply]
  rw [shapeCast_apply _ shapeCasts_S104857600_S10240x10240 (ix2 r c) (ix1 ⟨r.val * 10240 + c.val, hp⟩)
    (by rw [Shape.rowMajor_val_one, Shape.rowMajor_val_two]; rfl)]
  show Ideal.hostScatterAdd _ _ _ _ _ = Spec.adj (srcOf x1) (dstOf x1) (normOf x1) r c
  unfold Ideal.hostScatterAdd Spec.adj
  have hz : broadcastInDim S104857600 ![] bcast_S_S104857600 (constant (F := Ideal) S_ .f32 0x00000000#32)
      (ix1 ⟨r.val * 10240 + c.val, hp⟩) = (0 : EReal) := Ideal.ofBits_zero_f32
  rw [hz, zero_add]
  refine sum_filter_idx1 _ (fun e : Fin 650000 => (dstOf x1 e).val = r.val ∧ (srcOf x1 e).val = c.val)
    (Cert.ReferenceIdeal.Read.val_main_v29 (F := Ideal) x1) fun e => ?_
  rw [resultIdx_iff, idx_apply]
  have hs := (srcOf x1 e).isLt
  have hd := (dstOf x1 e).isLt
  have hfl : (flatIdx (F := Ideal) (Cert.ReferenceIdeal.Read.val_main_v3 (F := Ideal) x1)
      (Cert.ReferenceIdeal.Read.val_main_v6 (F := Ideal) x1) (ix1 e)).toInt
        = (((dstOf x1 e).val * 10240 + (srcOf x1 e).val : Nat) : Int) :=
    flat_word _ _ _ _ (hok e).1 (hok e).2 hs hd
  rw [hfl]
  show (((dstOf x1 e).val * 10240 + (srcOf x1 e).val : Nat) : Int) = ((r.val * 10240 + c.val : Nat) : Int) ↔ _
  constructor
  · intro h; omega
  · intro h; omega

end HostA

theorem adj_value (V : Valuation τ sig (Elt Ideal)) (hok : EdgesOk (V (Proc.devRef .tc main_arg1))) :
    StableHlo.after hostOps0_2 (StableHlo.after hostOps0_1 (StableHlo.after hostOps0 V)) (Proc.devRef .tc main_v42)
      = ofMat (Spec.adj (srcOf (V (Proc.devRef .tc main_arg1))) (dstOf (V (Proc.devRef .tc main_arg1)))
          (normOf (V (Proc.devRef .tc main_arg1)))) :=
  (HostA.adj_stage (F := Ideal) V).trans (HostA.adjOf_value _ hok)

end Cert.KernelIdeal.Hand

end
-- ==== Proof.KI.HostB.lean ====
import proofs.«414382_j4741643895756_3_alg».proof.Proof.Gen.KernelIdeal.Regions
import proofs.«414382_j4741643895756_3_alg».proof.Proof.Glue
import Idealize.ShloMosaic.Lib.ValueLayout

noncomputable section

namespace Cert.KernelIdeal.Hand

open Cert.KernelIdeal Cert.KernelIdeal.Gen Cert.Glue Idealize.ShloMosaic Idealize.ShloMosaic.ValueIdx

/-- A left fold of pointwise updates, read at one point: every step either leaves the point or sets it to `v`. -/
theorem foldl_at {ι A B : Type} (g : (A → B) → ι → (A → B)) (a : A) (v : B) (P : ι → Prop)
    (hhit : ∀ (r : A → B) (n : ι), P n → g r n a = v) :
    ∀ (l : List ι) (r : A → B), (∀ (r : A → B) (n : ι), n ∈ l → ¬P n → g r n a = r a) → ((∃ n ∈ l, P n) ∨ r a = v) →
      l.foldl g r a = v
  | [], _, _, h0 => h0.elim (fun ⟨_, h, _⟩ => absurd h List.not_mem_nil) id
  | m :: t, r, hmiss, h0 => by
    rw [List.foldl_cons]
    refine foldl_at g a v P hhit t (g r m) (fun r n hn => hmiss r n (List.mem_cons_of_mem _ hn)) ?_
    by_cases hm : P m
    · exact .inr (hhit r m hm)
    · rcases h0 with ⟨n, h, hP⟩ | h
      · rcases List.mem_cons.1 h with rfl | h'
        · exact absurd hP hm
        · exact .inl ⟨n, h', hP⟩
      · exact .inr ((hmiss r m List.mem_cons_self hm).trans h)

theorem pad_resultIdx (idx : IVec S1 32) (hidx : ∀ k, idx k = 0#32) (j : S10000x128.Idx) (i : S10240x128.Idx) :
    scatter_S10240x128_S1_S10000x128_01_n_0_0.resultIdx? j idx = some i ↔ (j 0).val = (i 0).val ∧ (j 1).val = (i 1).val := by
  have hs : ∀ a, scatter_S10240x128_S1_S10000x128_01_n_0_0.start j idx a = 0 := fun a => by
    unfold ScatterDims.start
    split
    · rw [hidx]; decide
    · rfl
  have h0 := idx2_lt0 j
  have h1 := idx2_lt1 j
  unfold ScatterDims.resultIdx?
  rw [dif_pos (fun a => by
    rw [hs]
    match a with
    | ⟨0, _⟩ => exact ⟨by omega, by show (0 : Int) + (((j 0).val : Nat) : Int) < ((10240 : Nat) : Int); omega⟩
    | ⟨1, _⟩ => exact ⟨by omega, by show (0 : Int) + (((j 1).val : Nat) : Int) < ((128 : Nat) : Int); omega⟩), Option.some.injEq]
  have e : ∀ a, ((scatter_S10240x128_S1_S10000x128_01_n_0_0.start j idx a + (scatter_S10240x128_S1_S10000x128_01_n_0_0.window j a : Int)).toNat) = (j a).val := fun a => by
    rw [hs]
    match a with
    | ⟨0, _⟩ => show ((0 : Int) + (((j 0).val : Nat) : Int)).toNat = (j 0).val; omega
    | ⟨1, _⟩ => show ((0 : Int) + (((j 1).val : Nat) : Int)).toNat = (j 1).val; omega
  constructor
  · intro h
    exact ⟨(e 0).symm.trans (congrArg (fun f => (f 0).val) h), (e 1).symm.trans (congrArg (fun f => (f 1).val) h)⟩
  · intro h
    funext a
    refine Fin.ext ((e a).trans ?_)
    match a with
    | ⟨0, _⟩ => exact h.1
    | ⟨1, _⟩ => exact h.2

/-- Writing a block of 10000 rows at the origin of 10240 rows: the block on its rows, the operand below them. -/
theorem scatter_pad {α : Type} (x : S10240x128.Idx → α) (idx : IVec S1 32) (hidx : ∀ k, idx k = 0#32) (upd : S10000x128.Idx → α)
    (r : Fin 10240) (q : Fin 128) :
    Host.scatter scatter_S10240x128_S1_S10000x128_01_n_0_0 (fun _ b => b) x idx upd (ix2 r q)
      = if h : r.val < 10000 then upd (ix2 ⟨r.val, h⟩ q) else x (ix2 r q) := by
  unfold Host.scatter
  refine foldl_at _ _ _ (fun n => scatter_S10240x128_S1_S10000x128_01_n_0_0.resultIdx? (S10000x128.rowMajor.symm n) idx = some (ix2 r q))
    (fun r' n hP => ?_) _ _ (fun r' n _ hP => ?_) ?_
  · have h := (pad_resultIdx idx hidx _ _).1 hP
    have hlt : r.val < 10000 := h.1 ▸ idx2_lt0 _
    rw [hP, dif_pos hlt, eq_ix2 (S10000x128.rowMajor.symm n)]
    dsimp only
    rw [if_pos rfl]
    exact congrArg upd (congrArg₂ ix2 (Fin.ext h.1) (Fin.ext h.2))
  · cases heq : scatter_S10240x128_S1_S10000x128_01_n_0_0.resultIdx? (S10000x128.rowMajor.symm n) idx with
    | none => rfl
    | some i => exact if_neg fun e => hP (by rw [heq, e])
  · by_cases h : r.val < 10000
    · exact .inl ⟨S10000x128.rowMajor (ix2 ⟨r.val, h⟩ q), List.mem_finRange _, by
        rw [Equiv.symm_apply_apply]; exact (pad_resultIdx idx hidx _ _).2 ⟨rfl, rfl⟩⟩
    · exact .inr (by rw [dif_neg h])

theorem pad_value (V : Valuation τ sig (Elt Ideal)) :
    StableHlo.after hostOps0_2 (StableHlo.after hostOps0_1 (StableHlo.after hostOps0 V)) (Proc.devRef .tc main_v45)
      = ofMat (Spec.pad (toMat (V (Proc.devRef .tc main_arg0)))) := by
  have harg : StableHlo.after hostOps0_1 (StableHlo.after hostOps0 V) (Proc.devRef .tc main_arg0)
      = V (Proc.devRef .tc main_arg0) := by
    rw [StableHlo.after_of_writes_sub hostOps0_1 _ hostOps0_1_writes (by decide),
      StableHlo.after_of_writes_sub hostOps0 _ hostOps0_writes (by decide)]
  generalize StableHlo.after hostOps0_1 (StableHlo.after hostOps0 V) = W at harg ⊢
  have e : (StableHlo.after hostOps0_2 W (Proc.devRef .tc main_v45) : S10240x128.Idx → EReal)
      = Host.scatter scatter_S10240x128_S1_S10000x128_01_n_0_0 (fun _ b => b)
          (broadcastInDim S10240x128 ![] Facts₀.bcast_S_S10240x128 (constant (F := Ideal) S_ .f32 0x00000000#32))
          (broadcastInDim S1 ![] Facts₀.bcast_S_S1 (constantI S_ 32 0#32))
          (W (Proc.devRef .tc main_arg0)) := by
    simp only [hostOps0_2]; after_results
  refine e.trans ?_
  rw [harg]
  funext i
  obtain ⟨r, q, rfl⟩ : ∃ (r : Fin 10240) (q : Fin 128), i = ix2 r q := ⟨i 0, i 1, eq_ix2 i⟩
  refine (scatter_pad _ _ (fun _ => rfl) _ r q).trans ?_
  show _ = Spec.pad (toMat (V (Proc.devRef .tc main_arg0))) r q
  unfold Spec.pad
  by_cases hr : r.val < 10000
  · rw [dif_pos hr, dif_pos hr]; rfl
  · rw [dif_neg hr, dif_neg hr]; exact Ideal.ofBits_zero_f32

theorem bias_apply (x : S128.Idx → EReal) (y : S1x128.Idx → EReal)
    (e : y = shapeCast S1x128 x Facts₀.shapeCasts_S128_S1x128) (j : Fin 128) : y (ix2 (0 : Fin 1) j) = x (ix1 j) :=
  (congrFun e _).trans (shapeCast_a_1a_apply _ _ 0 j)

theorem bias1_value (V : Valuation τ sig (Elt Ideal)) (j : Fin 128) :
    StableHlo.after hostOps1 V (Proc.devRef .tc main_v47) (ix2 (0 : Fin 1) j) = V (Proc.devRef .tc main_arg3) (ix1 j) :=
  bias_apply _ _ (by simp only [hostOps1]; after_results; rfl) j

theorem bias3_value (V : Valuation τ sig (Elt Ideal)) (j : Fin 128) :
    StableHlo.after hostOps3 V (Proc.devRef .tc main_v50) (ix2 (0 : Fin 1) j) = V (Proc.devRef .tc main_arg5) (ix1 j) :=
  bias_apply _ _ (by simp only [hostOps3]; after_results; rfl) j

theorem bias5_value (V : Valuation τ sig (Elt Ideal)) (j : Fin 128) :
    StableHlo.after hostOps5 V (Proc.devRef .tc main_v53) (ix2 (0 : Fin 1) j) = V (Proc.devRef .tc main_arg7) (ix1 j) :=
  bias_apply _ _ (by simp only [hostOps5]; after_results; rfl) j

theorem slice_value (V : Valuation τ sig (Elt Ideal)) (r : Fin 10000) (j : Fin 128) :
    StableHlo.after hostOps6 V (Proc.devRef .tc main_v55) (ix2 r j)
      = V (Proc.devRef .tc main_v54) (ix2 (⟨r.val, Nat.lt_of_lt_of_le r.isLt (by decide)⟩ : Fin 10240) j) := by
  have e : (StableHlo.after hostOps6 V (Proc.devRef .tc main_v55) : S10000x128.Idx → EReal)
      = extractStridedSlice S10000x128 ![0, 0] (V (Proc.devRef .tc main_v54) : S10240x128.Idx → EReal)
          Facts₀.slices_S10240x128_S10000x128_0_0 := by
    simp only [hostOps6]; after_results
  refine (congrFun e _).trans ?_
  refine extractStridedSlice_apply _ _ _ _ _ (fun a => ?_)
  match a with
  | ⟨0, _⟩ => show r.val = 0 + r.val; omega
  | ⟨1, _⟩ => show j.val = 0 + j.val; omega

end Cert.KernelIdeal.Hand

end
-- ==== Proof.KI.LinValue.lean ====
import proofs.«414382_j4741643895756_3_alg».proof.Proof.KI.Lin0
import proofs.«414382_j4741643895756_3_alg».proof.Proof.KI.Lin2
import proofs.«414382_j4741643895756_3_alg».proof.Proof.KI.Lin4
import proofs.«414382_j4741643895756_3_alg».proof.Proof.Glue
import Idealize.ShloMosaic.Lib.StackMember

noncomputable section

namespace Cert.KernelIdeal.Hand

open Cert.KernelIdeal Cert.KernelIdeal.Gen
open Idealize.ShloMosaic Idealize.ShloMosaic.TcCoe
open Cert.Glue Idealize.ShloMosaic.ValueIdx
open scoped BigOperators

/-- A block times the square matrix, at row `p` and column `q`: the sum over the 128 shared entries. -/
theorem matmul_lin_apply {φ₁ φ₂ : FTy} (x : FVec Ideal S1024x128 φ₁) (w : FVec Ideal S128x128 φ₂) (p : Fin 1024) (q : Fin 128) :
    FloatOps.matmul dot_S1024x128_S128x128_S1024x128_1_0_0_1_n_n none x w (constant (F := Ideal) S1024x128 .f32 0x00000000#32) (ix2 p q)
      = ∑ k : Fin 128, x (ix2 p k) * w (ix2 k q) :=
  (congrFun (matmul_zero_eq_dotGeneral _ none x w) _).trans (StackMember.dotGeneral_plain_apply none x w p q)

theorem lin_off_zero : (![0, 0] : Fin 2 → Nat) = fun _ => 0 := funext fun a => by fin_cases a <;> rfl

theorem eq_ix2_of_val {n0 n1 : Nat} {u : (⟨2, ![n0, n1]⟩ : Shape).Idx} {a : Fin n0} {b : Fin n1} (h0 : (u 0).val = a.val) (h1 : (u 1).val = b.val) :
    u = ix2 a b :=
  funext fun d => Fin.ext (match d with | ⟨0, _⟩ => h0 | ⟨1, _⟩ => h1)

/-- `e` places an `m` by `n` block at block index `i`: `i 0 * m` rows down and `i 1 * n` columns across. -/
abbrev BlkEmb {m n R C : Nat} (e : (⟨2, ![m, n]⟩ : Shape).Idx → (⟨2, ![R, C]⟩ : Shape).Idx) (i : Fin 2 → Nat) : Prop :=
  ∀ p q, (e (ix2 p q) 0).val = i 0 * m + 1 * p.val ∧ (e (ix2 p q) 1).val = i 1 * n + 1 * q.val

/-- The block indices at point `t`: block `t` of rows for the features and the result, the whole matrix. -/
abbrev LinIdx {N : Nat} (i0 i1 i2 : Fin N → Fin 2 → Nat) : Prop :=
  ∀ t, i0 t 0 = t.val ∧ i0 t 1 = 0 ∧ i1 t 0 = 0 ∧ i1 t 1 = 0 ∧ i2 t 0 = t.val ∧ i2 t 1 = 0

/-- Each block of 1024 rows of the product is those rows of the whole product, and row `r` is in block `r / 1024`. -/
theorem lin_tile {N : Nat} (hN : N = 10) {i0 i1 i2 : Fin N → Fin 2 → Nat} (h : LinIdx i0 i1 i2)
    (X : S10240x128.Idx → EReal) (W : S128x128.Idx → EReal)
    {e0 e2 : Fin N → S1024x128.Idx → S10240x128.Idx} {e1 : Fin N → S128x128.Idx → S128x128.Idx}
    (h0 : ∀ t, BlkEmb (e0 t) (i0 t)) (h1 : ∀ t, BlkEmb (e1 t) (i1 t)) (h2 : ∀ t, BlkEmb (e2 t) (i2 t))
    {o : (S1024x128.Idx → EReal) → (S128x128.Idx → EReal) → S1024x128.Idx → EReal}
    (ho : ∀ x w p q, o x w (ix2 p q) = ∑ k : Fin 128, x (ix2 p k) * w (ix2 k q)) :
    (∀ t j, o (fun y => X (e0 t y)) (fun y => W (e1 t y)) j = ofMat (Spec.lin (toMat X) (toMat W)) (e2 t j))
      ∧ ∀ i, ∃ t y, e2 t y = i := by
  subst hN
  refine ⟨fun t j => ?_, fun i => ?_⟩
  · obtain ⟨a0, a1, b0, b1, c0, c1⟩ := h t
    obtain ⟨p, q, rfl⟩ : ∃ p q, j = ix2 p q := ⟨j 0, j 1, eq_ix2 j⟩
    obtain ⟨C0, C1⟩ := h2 t p q
    rw [ho]
    show _ = ∑ k : Fin 128, X (ix2 (e2 t (ix2 p q) 0) k) * W (ix2 k (e2 t (ix2 p q) 1))
    refine Finset.sum_congr rfl fun k _ => ?_
    obtain ⟨A0, A1⟩ := h0 t p k
    obtain ⟨B0, B1⟩ := h1 t k q
    exact congrArg₂ (fun u v => X u * W v) (eq_ix2_of_val (by rw [A0, C0, a0, c0]) (by rw [A1, a1]; omega))
      (eq_ix2_of_val (by rw [B0, b0]; omega) (by rw [B1, C1, b1, c1]))
  · have := idx2_lt0 i
    obtain ⟨t, ht⟩ : ∃ t : Fin 10, t.val = (i 0).val / 1024 := ⟨⟨_, by omega⟩, rfl⟩
    obtain ⟨r, hr⟩ : ∃ r : Fin 1024, r.val = (i 0).val % 1024 := ⟨⟨_, by omega⟩, rfl⟩
    obtain ⟨-, -, -, -, c0, c1⟩ := h t
    obtain ⟨C0, C1⟩ := h2 t r (i 1)
    exact ⟨t, _, (eq_ix2_of_val (by rw [C0, c0]; omega) (by rw [C1, c1]; omega)).trans (eq_ix2 i).symm⟩

variable (V : (c : Dev nD) → (b : Ref sig .tc) → Buf (Elt Ideal) ((c : Thread nD τ).loc b))

theorem out0_2_apply (x w p q) : out0_2 (F := Ideal) x w (ix2 p q) = ∑ k : Fin 128, x (ix2 p k) * w (ix2 k q) := by
  unfold out0_2 k0_pay1
  rw [View.canon_unit_zero lin_off_zero, View.ld_unit_zero lin_off_zero, View.ld_unit_zero lin_off_zero, shapeCast_self]
  exact matmul_lin_apply (φ₁ := .bf16) (φ₂ := .bf16) _ _ p q

theorem lin_idx0 : LinIdx (N := grid0.N) win0_0.index win0_1.index win0_2.index := by decide +kernel

theorem lin0_value (c : Dev nD) :
    (dat0 (F := Ideal) V c).arrAt 2 cfg0.N = ofMat (Spec.lin (toMat (V c main_v45)) (toMat (V c main_arg2))) := by
  obtain ⟨hG, hc⟩ := lin_tile N_0 lin_idx0 (V c main_v45) (V c main_arg2)
    (e0 := fun t => ((cfg0.win 0).blk t).view.emb) (e1 := fun t => ((cfg0.win 1).blk t).view.emb)
    (e2 := fun t => ((cfg0.win 2).blk t).view.emb)
    (fun _ _ _ => ⟨rfl, rfl⟩) (fun _ _ _ => ⟨rfl, rfl⟩) (fun _ _ _ => ⟨rfl, rfl⟩) out0_2_apply
  refine (dat0 (F := Ideal) V c).arrAt_eq_of_cover 2 _ (fun t _ => ?_) fun i => ?_
  · show (cfg0.win 2).cut (grid0.coords t) ((dat0 (F := Ideal) V c).after 2 t) = _
    rw [after0_2]
    exact funext (hG t)
  · obtain ⟨t, y, e⟩ := hc i
    exact ⟨t, flush0_2 t, e ▸ View.emb_mem_set _ y⟩

theorem out2_2_apply (x w p q) : out2_2 (F := Ideal) x w (ix2 p q) = ∑ k : Fin 128, x (ix2 p k) * w (ix2 k q) := by
  unfold out2_2 k2_pay1
  rw [View.canon_unit_zero lin_off_zero, View.ld_unit_zero lin_off_zero, View.ld_unit_zero lin_off_zero, shapeCast_self]
  exact matmul_lin_apply (φ₁ := .bf16) (φ₂ := .bf16) _ _ p q

theorem lin_idx2 : LinIdx (N := grid2.N) win2_0.index win2_1.index win2_2.index := by decide +kernel

theorem lin2_value (c : Dev nD) :
    (dat2 (F := Ideal) V c).arrAt 2 cfg2.N = ofMat (Spec.lin (toMat (V c main_v48)) (toMat (V c main_arg4))) := by
  obtain ⟨hG, hc⟩ := lin_tile N_2 lin_idx2 (V c main_v48) (V c main_arg4)
    (e0 := fun t => ((cfg2.win 0).blk t).view.emb) (e1 := fun t => ((cfg2.win 1).blk t).view.emb)
    (e2 := fun t => ((cfg2.win 2).blk t).view.emb)
    (fun _ _ _ => ⟨rfl, rfl⟩) (fun _ _ _ => ⟨rfl, rfl⟩) (fun _ _ _ => ⟨rfl, rfl⟩) out2_2_apply
  refine (dat2 (F := Ideal) V c).arrAt_eq_of_cover 2 _ (fun t _ => ?_) fun i => ?_
  · show (cfg2.win 2).cut (grid2.coords t) ((dat2 (F := Ideal) V c).after 2 t) = _
    rw [after2_2]
    exact funext (hG t)
  · obtain ⟨t, y, e⟩ := hc i
    exact ⟨t, flush2_2 t, e ▸ View.emb_mem_set _ y⟩

theorem out4_2_apply (x w p q) : out4_2 (F := Ideal) x w (ix2 p q) = ∑ k : Fin 128, x (ix2 p k) * w (ix2 k q) := by
  unfold out4_2 k4_pay1
  rw [View.canon_unit_zero lin_off_zero, View.ld_unit_zero lin_off_zero, View.ld_unit_zero lin_off_zero, shapeCast_self]
  exact matmul_lin_apply (φ₁ := .bf16) (φ₂ := .bf16) _ _ p q

theorem lin_idx4 : LinIdx (N := grid4.N) win4_0.index win4_1.index win4_2.index := by decide +kernel

theorem lin4_value (c : Dev nD) :
    (dat4 (F := Ideal) V c).arrAt 2 cfg4.N = ofMat (Spec.lin (toMat (V c main_v51)) (toMat (V c main_arg6))) := by
  obtain ⟨hG, hc⟩ := lin_tile N_4 lin_idx4 (V c main_v51) (V c main_arg6)
    (e0 := fun t => ((cfg4.win 0).blk t).view.emb) (e1 := fun t => ((cfg4.win 1).blk t).view.emb)
    (e2 := fun t => ((cfg4.win 2).blk t).view.emb)
    (fun _ _ _ => ⟨rfl, rfl⟩) (fun _ _ _ => ⟨rfl, rfl⟩) (fun _ _ _ => ⟨rfl, rfl⟩) out4_2_apply
  refine (dat4 (F := Ideal) V c).arrAt_eq_of_cover 2 _ (fun t _ => ?_) fun i => ?_
  · show (cfg4.win 2).cut (grid4.coords t) ((dat4 (F := Ideal) V c).after 2 t) = _
    rw [after4_2]
    exact funext (hG t)
  · obtain ⟨t, y, e⟩ := hc i
    exact ⟨t, flush4_2 t, e ▸ View.emb_mem_set _ y⟩

end Cert.KernelIdeal.Hand

end
-- ==== Proof.KI.AggValue.lean ====
import proofs.«414382_j4741643895756_3_alg».proof.Proof.KI.Agg1
import proofs.«414382_j4741643895756_3_alg».proof.Proof.KI.Agg3
import proofs.«414382_j4741643895756_3_alg».proof.Proof.KI.Agg5
import proofs.«414382_j4741643895756_3_alg».proof.Proof.Glue

noncomputable section

namespace Cert.KernelIdeal.Hand

open Cert.KernelIdeal Cert.KernelIdeal.Gen
open Idealize.ShloMosaic Idealize.ShloMosaic.TcCoe Idealize.ShloMosaic.Tactic
open Cert.Glue Idealize.ShloMosaic.ValueIdx

theorem aggHz : (![0, 0] : Fin 2 → Nat) = fun _ => 0 := funext fun a => by fin_cases a <;> rfl

theorem lhs_agg_0 (j : S1024x128.Idx) (k : dot_S1024x5120_S5120x128_S1024x128_1_0_0_1_n_n.contr.Idx) :
    (dot_S1024x5120_S5120x128_S1024x128_1_0_0_1_n_n.lhsIdx j k 0).val = (j 0).val := by
  unfold DotDims.lhsIdx
  rw [dif_neg (show ¬(0 : Fin S1024x5120.rank) ∈ dot_S1024x5120_S5120x128_S1024x128_1_0_0_1_n_n.lhsBatch by decide), dif_pos (show (0 : Fin S1024x5120.rank) ∈ dot_S1024x5120_S5120x128_S1024x128_1_0_0_1_n_n.lhsNonContracting by decide)]
  rfl
theorem lhs_agg_1 (j : S1024x128.Idx) (k : dot_S1024x5120_S5120x128_S1024x128_1_0_0_1_n_n.contr.Idx) :
    (dot_S1024x5120_S5120x128_S1024x128_1_0_0_1_n_n.lhsIdx j k 1).val = (k ⟨0, by decide⟩).val :=
  dot_S1024x5120_S5120x128_S1024x128_1_0_0_1_n_n.lhsIdx_val_of_single rfl j k
theorem rhs_agg_0 (j : S1024x128.Idx) (k : dot_S1024x5120_S5120x128_S1024x128_1_0_0_1_n_n.contr.Idx) :
    (dot_S1024x5120_S5120x128_S1024x128_1_0_0_1_n_n.rhsIdx j k 0).val = (k ⟨0, by decide⟩).val :=
  dot_S1024x5120_S5120x128_S1024x128_1_0_0_1_n_n.rhsIdx_val_of_single rfl j k
theorem rhs_agg_1 (j : S1024x128.Idx) (k : dot_S1024x5120_S5120x128_S1024x128_1_0_0_1_n_n.contr.Idx) :
    (dot_S1024x5120_S5120x128_S1024x128_1_0_0_1_n_n.rhsIdx j k 1).val = (j 1).val := by
  unfold DotDims.rhsIdx
  rw [dif_neg (show ¬(1 : Fin S5120x128.rank) ∈ dot_S1024x5120_S5120x128_S1024x128_1_0_0_1_n_n.rhsBatch by decide), dif_pos (show (1 : Fin S5120x128.rank) ∈ dot_S1024x5120_S5120x128_S1024x128_1_0_0_1_n_n.rhsNonContracting by decide)]
  rfl

/-- An index of a rank-2 shape is determined by the values of its two coordinates. -/
theorem ix2_of_val {n0 n1 : Nat} (j : (⟨2, ![n0, n1]⟩ : Shape).Idx) (a : Fin n0) (b : Fin n1)
    (h0 : (j 0).val = a.val) (h1 : (j 1).val = b.val) : j = ix2 a b :=
  (eq_ix2 j).trans (congrArg₂ ix2 (Fin.ext h0) (Fin.ext h1))

theorem agg_matmul_apply (a : FVec Ideal S1024x5120 .bf16) (h : FVec Ideal S5120x128 .bf16) (p : Fin 1024) (q : Fin 128) :
    FloatOps.matmul dot_S1024x5120_S5120x128_S1024x128_1_0_0_1_n_n none a h (constant (F := Ideal) S1024x128 .f32 0x00000000#32) (ix2 p q)
      = ∑ s : Fin 5120, a (ix2 p s) * h (ix2 s q) := by
  rw [Ideal.matmul_constant_zero_apply, ← Equiv.sum_comp (contrEquiv1 dot_S1024x5120_S5120x128_S1024x128_1_0_0_1_n_n 5120 rfl rfl).symm]
  refine Finset.sum_congr rfl fun k _ => ?_
  have hk := contrEquiv1_symm_val dot_S1024x5120_S5120x128_S1024x128_1_0_0_1_n_n 5120 rfl rfl k
  rw [ix2_of_val (dot_S1024x5120_S5120x128_S1024x128_1_0_0_1_n_n.lhsIdx _ _) p k (lhs_agg_0 _ _) ((lhs_agg_1 _ _).trans hk),
    ix2_of_val (dot_S1024x5120_S5120x128_S1024x128_1_0_0_1_n_n.rhsIdx _ _) k q ((rhs_agg_0 _ _).trans hk) (rhs_agg_1 _ _)]

theorem agg_mask (a p : Nat) (ha : a < 10) (hp : p < 1024) :
    IntOp.cmpi .slt (IntOp.addi (BitVec.ofNat 32 p) (Scalar.muli (BitVec.ofNat 32 a) 1024#32)) 10000#32
      = if 1024 * a + p < 10000 then 1#1 else 0#1 := by
  have e : IntOp.addi (BitVec.ofNat 32 p) (Scalar.muli (BitVec.ofNat 32 a) 1024#32) = BitVec.ofNat 32 (1024 * a + p) := by
    apply BitVec.eq_of_toNat_eq
    simp only [IntOp.addi, Scalar.muli, IntOp.muli, BitVec.toNat_add, BitVec.toNat_mul, BitVec.toNat_ofNat]
    omega
  rw [e]
  unfold IntOp.cmpi
  simp only [BitVec.slt]
  have h1 : (BitVec.ofNat 32 (1024 * a + p)).toInt = ((1024 * a + p : Nat) : Int) := by
    rw [BitVec.toInt_eq_toNat_cond, BitVec.toNat_ofNat]
    have e' : (1024 * a + p) % 2 ^ 32 = 1024 * a + p := Nat.mod_eq_of_lt (by omega)
    rw [e', if_pos (by omega)]
  have h2 : (10000#32 : BitVec 32).toInt = 10000 := by decide
  rw [h1, h2]
  by_cases h : 1024 * a + p < 10000
  · rw [if_pos h, decide_eq_true (by omega)]; rfl
  · rw [if_neg h, decide_eq_false (by omega)]; rfl

theorem sum_split_cols (f : Fin 10240 → EReal) :
    ∑ s : Fin 10240, f s
      = (∑ s : Fin 5120, f ⟨s.val, Nat.lt_of_lt_of_le s.isLt (by decide)⟩)
        + ∑ s : Fin 5120, f ⟨5120 + s.val, Nat.add_lt_add_left s.isLt 5120⟩ :=
  Fin.sum_univ_add (a := 5120) (b := 5120) f

theorem k1_pay1_apply (p : Fin 1024) (q : Fin 128) : k1_pay1 (F := Ideal) (ix2 p q) = 0 := by
  unfold k1_pay1
  simp only [shapeCast_self]
  exact Ideal.ofBits_zero_f32

theorem k1_pay2_apply (v3 : Vec Ideal S1024x128 .f32) (a : Vec Ideal S1024x5120 .bf16) (h : Vec Ideal S5120x128 .bf16) (p : Fin 1024) (q : Fin 128) :
    k1_pay2 (F := Ideal) v3 a h (ix2 p q) = v3 (ix2 p q) + ∑ s : Fin 5120, a (ix2 p s) * h (ix2 s q) := by
  unfold k1_pay2
  simp only [shapeCast_self]
  exact congrArg (v3 (ix2 p q) + ·) (agg_matmul_apply a h p q)

theorem k1_pay3_apply (i : grid1.Coords) (acc : Vec Ideal S1024x128 .f32) (b : Vec Ideal S1x128 .f32) (p : Fin 1024) (q : Fin 128) :
    k1_pay3 (F := Ideal) i acc b (ix2 p q)
      = if 1024 * (i 0).val + p.val < 10000 then max (acc (ix2 p q) + b (ix2 (0 : Fin 1) q)) 0 else 0 := by
  unfold k1_pay3
  simp only [shapeCast_self]
  have hb : broadcastTo S1024x128 b broadcasts_S1x128_S1024x128 (ix2 p q) = b (ix2 (0 : Fin 1) q) :=
    broadcastTo_apply b broadcasts_S1x128_S1024x128 (ix2 p q) (ix2 (0 : Fin 1) q) (fun a => by
      match a with
      | ⟨0, _⟩ => rfl
      | ⟨1, _⟩ => rfl)
  have hi : iota .tc S1024x128 32 [0] iota_S1024x128_d0_w32 (ix2 p q) = BitVec.ofNat 32 p.val :=
    iota_single_apply .tc S1024x128 32 0 iota_S1024x128_d0_w32 (ix2 p q)
  have hm := agg_mask (i 0).val p.val (i 0).isLt p.isLt
  show Scalar.select (IntOp.cmpi .slt (IntOp.addi (iota .tc S1024x128 32 [0] iota_S1024x128_d0_w32 (ix2 p q)) (Scalar.muli (BitVec.ofNat 32 (i 0).val) 1024#32)) 10000#32)
      (max (acc (ix2 p q) + broadcastTo S1024x128 b broadcasts_S1x128_S1024x128 (ix2 p q)) (Ideal.ofBits .f32 0x00000000#32)) (Ideal.ofBits .f32 0x00000000#32) = _
  rw [hi, hb, hm, Ideal.ofBits_zero_f32]
  by_cases h : 1024 * (i 0).val + p.val < 10000
  · rw [if_pos h, if_pos h]; exact select_one _ _
  · rw [if_neg h, if_neg h]; exact select_zero _ _

/-- The index maps of an aggregation region: point `t` is row block `t / 2` and column half `t % 2`. -/
def AggIdx {N : Nat} (i0 i1 i2 i3 : Fin N → Fin 2 → Nat) (g : Fin N → grid1.Coords) : Prop :=
  ∀ t : Fin N, i0 t 0 = t.val / 2 ∧ i0 t 1 = t.val % 2 ∧ i1 t 0 = t.val % 2 ∧ i1 t 1 = 0
    ∧ i2 t 0 = 0 ∧ i2 t 1 = 0 ∧ i3 t 0 = t.val / 2 ∧ i3 t 1 = 0 ∧ (g t 0).val = t.val / 2

section
variable {N : Nat} {i0 i1 i2 i3 : Fin N → Fin 2 → Nat} {g : Fin N → grid1.Coords} (h : AggIdx i0 i1 i2 i3 g)
include h

/-- Every row of the result lies in the output block of the odd point of its row block. -/
theorem AggIdx.cover (hN : N = 20) (i : S10240x128.Idx) : ∃ t : Fin N, t.val % 2 = 1
    ∧ ∀ a : Fin 2, i3 t a * S1024x128.size a ≤ (i a).val ∧ (i a).val < i3 t a * S1024x128.size a + S1024x128.size a := by
  have hi0 : (i 0).val < 10240 := (i 0).isLt
  have hi1 : (i 1).val < 128 := (i 1).isLt
  have ht : 2 * ((i 0).val / 1024) + 1 < N := by omega
  obtain ⟨-, -, -, -, -, -, e0, e1, -⟩ := h ⟨_, ht⟩
  dsimp only at e0 e1
  refine ⟨⟨_, ht⟩, by show (2 * ((i 0).val / 1024) + 1) % 2 = 1; omega, fun a => ?_⟩
  match a with
  | ⟨0, _⟩ => show i3 ⟨_, ht⟩ 0 * 1024 ≤ (i 0).val ∧ (i 0).val < i3 ⟨_, ht⟩ 0 * 1024 + 1024; rw [e0]; omega
  | ⟨1, _⟩ => show i3 ⟨_, ht⟩ 1 * 128 ≤ (i 1).val ∧ (i 1).val < i3 ⟨_, ht⟩ 1 * 128 + 128; rw [e1]; omega

/-- The two points of a row block accumulate the two halves of the sum over all columns. -/
theorem AggIdx.point (A : Vec Ideal S10240x10240 .bf16) (H : Vec Ideal S10240x128 .bf16) (B : Vec Ideal S1x128 .f32)
    (e0 : Fin N → S1024x5120.Idx → S10240x10240.Idx) (e1 : Fin N → S5120x128.Idx → S10240x128.Idx)
    (e2 : Fin N → S1x128.Idx → S1x128.Idx) (e3 : Fin N → S1024x128.Idx → S10240x128.Idx)
    (h0 : ∀ t y a, (e0 t y a).val = i0 t a * S1024x5120.size a + 1 * (y a).val)
    (h1 : ∀ t y a, (e1 t y a).val = i1 t a * S5120x128.size a + 1 * (y a).val)
    (h2 : ∀ t y a, (e2 t y a).val = i2 t a * S1x128.size a + 1 * (y a).val)
    (h3 : ∀ t y a, (e3 t y a).val = i3 t a * S1024x128.size a + 1 * (y a).val)
    (t : Fin N) (ht : t.val % 2 = 1) (hlt : t.val - 1 < N) (j : S1024x128.Idx) :
    k1_pay3 (F := Ideal) (g t) (k1_pay2 (k1_pay2 k1_pay1 (fun y => A (e0 ⟨t.val - 1, hlt⟩ y)) (fun y => H (e1 ⟨t.val - 1, hlt⟩ y)))
        (fun y => A (e0 t y)) (fun y => H (e1 t y))) (fun y => B (e2 t y)) j
      = ofMat (Spec.aggK (toMat A) (toMat H) (fun j => B (ix2 (0 : Fin 1) j))) (e3 t j) := by
  obtain ⟨p, q, rfl⟩ : ∃ (p : Fin 1024) (q : Fin 128), j = ix2 p q := ⟨j 0, j 1, eq_ix2 j⟩
  obtain ⟨a0, a1, b0, b1, c0, c1, d0, d1, eg⟩ := h t
  obtain ⟨a0', a1', b0', b1', -⟩ := h ⟨t.val - 1, hlt⟩
  dsimp only at a0' a1' b0' b1'
  have hr : (e3 t (ix2 p q) 0).val = 1024 * (t.val / 2) + p.val := by
    rw [h3]; show i3 t 0 * 1024 + 1 * p.val = _; rw [d0]; omega
  have hq : e3 t (ix2 p q) 1 = q := Fin.ext (by rw [h3]; show i3 t 1 * 128 + 1 * q.val = _; rw [d1]; omega)
  have hb : e2 t (ix2 (0 : Fin 1) q) = ix2 (0 : Fin 1) q := ix2_of_val _ _ _
    (by rw [h2]; show i2 t 0 * 1 + 1 * 0 = 0; rw [c0]) (by rw [h2]; show i2 t 1 * 128 + 1 * q.val = _; rw [c1]; omega)
  rw [k1_pay3_apply, k1_pay2_apply, k1_pay2_apply, k1_pay1_apply, zero_add, hb, eg, ← hr]
  show _ = Spec.aggK _ _ _ (e3 t (ix2 p q) 0) (e3 t (ix2 p q) 1)
  rw [hq]
  unfold Spec.aggK
  rw [sum_split_cols]
  have hA : ∀ (t' : Fin N) (s : Fin 5120) (u : Fin 10240), t'.val / 2 = t.val / 2 → u.val = 5120 * (t'.val % 2) + s.val →
      i0 t' 0 = t'.val / 2 → i0 t' 1 = t'.val % 2 → i1 t' 0 = t'.val % 2 → i1 t' 1 = 0 →
      A (e0 t' (ix2 p s)) * H (e1 t' (ix2 s q)) = toMat A (e3 t (ix2 p q) 0) u * toMat H u q := fun t' s u ht' hu x0 x1 y0 y1 => by
    rw [ix2_of_val (e0 t' (ix2 p s)) (e3 t (ix2 p q) 0) u (by rw [h0, hr]; show i0 t' 0 * 1024 + 1 * p.val = _; rw [x0, ht']; omega)
        (by rw [h0, hu]; show i0 t' 1 * 5120 + 1 * s.val = _; rw [x1]; omega),
      ix2_of_val (e1 t' (ix2 s q)) u q (by rw [h1, hu]; show i1 t' 0 * 5120 + 1 * s.val = _; rw [y0]; omega)
        (by rw [h1]; show i1 t' 1 * 128 + 1 * q.val = _; rw [y1]; omega)]
    rfl
  rw [Finset.sum_congr rfl fun s _ => hA ⟨t.val - 1, hlt⟩ s ⟨s.val, Nat.lt_of_lt_of_le s.isLt (by decide)⟩
      (by show (t.val - 1) / 2 = t.val / 2; omega) (by show s.val = 5120 * ((t.val - 1) % 2) + s.val; omega) a0' a1' b0' b1',
    Finset.sum_congr rfl fun s _ => hA t s ⟨5120 + s.val, Nat.add_lt_add_left s.isLt 5120⟩ rfl
      (by show 5120 + s.val = 5120 * (t.val % 2) + s.val; omega) a0 a1 b0 b1]
end

variable (V : (c : Dev nD) → (b : Ref sig .tc) → Buf (Elt Ideal) ((c : Thread nD τ).loc b))

theorem idx1 : AggIdx win1_0.index win1_1.index win1_2.index win1_3.index grid1.coords :=
  (by decide +kernel : ∀ t : Fin grid1.N, _)

theorem scr_even1 (c : Dev nD) (t : Fin cfg1.N) (h0 : t.val % 2 = 0) :
    (outsAt1 V c t.val t.isLt).2 = k1_pay2 (k1_pay1 (F := Ideal)) (iblk1 V c 0 t) (iblk1 V c 1 t) := by
  rw [outsAt1_A V c t h0]
  unfold outA1
  dsimp only
  rw [View.read_writes_eq_canon _ _ _ (scover1_A V c t h0)]
  unfold runA1 kernelRun1_A
  dsimp only
  sl_unfold_words
  rw [View.canon_cons_unit_zero (S := S1024x128) aggHz, View.readCov_unit_zero (S := S1024x128) _ aggHz]
  simp only [View.readAt_eq_ld, (hs1_0 t).read_unread, (hs1_1 t).read_unread, View.ld_unit_zero (S := S1024x5120) aggHz, View.ld_unit_zero (S := S5120x128) aggHz]

theorem out_odd1 (c : Dev nD) (t : Fin cfg1.N) (h1 : t.val % 2 = 1) (hlt : t.val - 1 < cfg1.N) :
    (outsAt1 V c t.val t.isLt).1 = k1_pay3 (F := Ideal) (grid1.coords t)
      (k1_pay2 (k1_pay2 k1_pay1 (iblk1 V c 0 ⟨t.val - 1, hlt⟩) (iblk1 V c 1 ⟨t.val - 1, hlt⟩)) (iblk1 V c 0 t) (iblk1 V c 1 t)) (iblk1 V c 2 t) := by
  have h0 : ¬t.val % 2 = 0 := by omega
  have e := scr_even1 V c ⟨t.val - 1, hlt⟩ (by show (t.val - 1) % 2 = 0; omega)
  dsimp only at e
  rw [outsAt1_B V c t h0]
  unfold outB1
  dsimp only
  rw [e]
  rw [View.read_writes_eq_canon _ _ _ (cover1_B_3 V c t h0 _)]
  unfold runB1 kernelRun1_B
  dsimp only
  sl_unfold_words
  rw [View.canon_unit_zero aggHz, View.readCov_unit_zero (S := S1024x128) _ aggHz]
  simp only [View.readAt_eq_ld, (hs1_0 t).read_unread, (hs1_1 t).read_unread, (hs1_2 t).read_unread, (Memref.isWhole_whole cc1_scratch0).read_unread, View.ld_unit_zero (S := S1024x5120) aggHz, View.ld_unit_zero (S := S5120x128) aggHz, View.ld_unit_zero (S := S1024x128) aggHz, View.ld_unit_zero (S := S1x128) aggHz]

theorem agg1_value (c : Dev nD) : (dat1 (F := Ideal) V c).arrAt 3 cfg1.N
    = ofMat (Spec.aggK (toMat (V c main_v42)) (toMat (V c main_v46)) (fun j => V c main_v47 (ix2 (0 : Fin 1) j))) :=
  (dat1 V c).arrAt_eq_of_cover 3 _ (fun t hf => by
    have h1 : t.val % 2 = 1 := (flush1_3 t).mp hf
    have hlt : t.val - 1 < cfg1.N := Nat.lt_of_le_of_lt (Nat.sub_le _ _) t.isLt
    show (cfg1.win 3).cut (grid1.coords t) ((dat1 V c).after 3 t) = _
    rw [after1_3, out_odd1 V c t h1 hlt]
    funext j
    rw [View.read_apply]
    exact idx1.point (V c main_v42) (V c main_v46) (V c main_v47) (fun t => ((cfg1.win 0).blk t).view.emb) (fun t => ((cfg1.win 1).blk t).view.emb)
      (fun t => ((cfg1.win 2).blk t).view.emb) (fun t => ((cfg1.win 3).blk t).view.emb)
      (fun _ _ _ => rfl) (fun _ _ _ => rfl) (fun _ _ _ => rfl) (fun _ _ _ => rfl) t h1 hlt j) fun i => by
    obtain ⟨t, h1, h⟩ := idx1.cover N_1 i
    refine ⟨t, (flush1_3 t).mpr h1, ?_⟩
    show i ∈ ((View.whole main_v48).slice (win1_3.rect t)).set
    rw [View.set_slice_whole, Rect.mem_set_unit]
    exact h

theorem idx3 : AggIdx win3_0.index win3_1.index win3_2.index win3_3.index grid3.coords :=
  (by decide +kernel : ∀ t : Fin grid3.N, _)

theorem scr_even3 (c : Dev nD) (t : Fin cfg3.N) (h0 : t.val % 2 = 0) :
    (outsAt3 V c t.val t.isLt).2 = k1_pay2 (k1_pay1 (F := Ideal)) (iblk3 V c 0 t) (iblk3 V c 1 t) := by
  rw [outsAt3_A V c t h0]
  unfold outA3
  dsimp only
  rw [View.read_writes_eq_canon _ _ _ (scover3_A V c t h0)]
  unfold runA3 kernelRun3_A
  dsimp only
  sl_unfold_words
  rw [View.canon_cons_unit_zero (S := S1024x128) aggHz, View.readCov_unit_zero (S := S1024x128) _ aggHz]
  simp only [View.readAt_eq_ld, (hs3_0 t).read_unread, (hs3_1 t).read_unread, View.ld_unit_zero (S := S1024x5120) aggHz, View.ld_unit_zero (S := S5120x128) aggHz]
  rfl

theorem out_odd3 (c : Dev nD) (t : Fin cfg3.N) (h1 : t.val % 2 = 1) (hlt : t.val - 1 < cfg3.N) :
    (outsAt3 V c t.val t.isLt).1 = k1_pay3 (F := Ideal) (grid3.coords t)
      (k1_pay2 (k1_pay2 k1_pay1 (iblk3 V c 0 ⟨t.val - 1, hlt⟩) (iblk3 V c 1 ⟨t.val - 1, hlt⟩)) (iblk3 V c 0 t) (iblk3 V c 1 t)) (iblk3 V c 2 t) := by
  have h0 : ¬t.val % 2 = 0 := by omega
  have e := scr_even3 V c ⟨t.val - 1, hlt⟩ (by show (t.val - 1) % 2 = 0; omega)
  dsimp only at e
  rw [outsAt3_B V c t h0]
  unfold outB3
  dsimp only
  rw [e]
  rw [View.read_writes_eq_canon _ _ _ (cover3_B_3 V c t h0 _)]
  unfold runB3 kernelRun3_B
  dsimp only
  sl_unfold_words
  rw [View.canon_unit_zero aggHz, View.readCov_unit_zero (S := S1024x128) _ aggHz]
  simp only [View.readAt_eq_ld, (hs3_0 t).read_unread, (hs3_1 t).read_unread, (hs3_2 t).read_unread, (Memref.isWhole_whole cc3_scratch0).read_unread, View.ld_unit_zero (S := S1024x5120) aggHz, View.ld_unit_zero (S := S5120x128) aggHz, View.ld_unit_zero (S := S1024x128) aggHz, View.ld_unit_zero (S := S1x128) aggHz]
  rfl

theorem agg3_value (c : Dev nD) : (dat3 (F := Ideal) V c).arrAt 3 cfg3.N
    = ofMat (Spec.aggK (toMat (V c main_v42)) (toMat (V c main_v49)) (fun j => V c main_v50 (ix2 (0 : Fin 1) j))) :=
  (dat3 V c).arrAt_eq_of_cover 3 _ (fun t hf => by
    have h1 : t.val % 2 = 1 := (flush3_3 t).mp hf
    have hlt : t.val - 1 < cfg3.N := Nat.lt_of_le_of_lt (Nat.sub_le _ _) t.isLt
    show (cfg3.win 3).cut (grid3.coords t) ((dat3 V c).after 3 t) = _
    rw [after3_3, out_odd3 V c t h1 hlt]
    funext j
    rw [View.read_apply]
    exact idx3.point (V c main_v42) (V c main_v49) (V c main_v50) (fun t => ((cfg3.win 0).blk t).view.emb) (fun t => ((cfg3.win 1).blk t).view.emb)
      (fun t => ((cfg3.win 2).blk t).view.emb) (fun t => ((cfg3.win 3).blk t).view.emb)
      (fun _ _ _ => rfl) (fun _ _ _ => rfl) (fun _ _ _ => rfl) (fun _ _ _ => rfl) t h1 hlt j) fun i => by
    obtain ⟨t, h1, h⟩ := idx3.cover N_3 i
    refine ⟨t, (flush3_3 t).mpr h1, ?_⟩
    show i ∈ ((View.whole main_v51).slice (win3_3.rect t)).set
    rw [View.set_slice_whole, Rect.mem_set_unit]
    exact h

theorem idx5 : AggIdx win5_0.index win5_1.index win5_2.index win5_3.index grid5.coords :=
  (by decide +kernel : ∀ t : Fin grid5.N, _)

theorem scr_even5 (c : Dev nD) (t : Fin cfg5.N) (h0 : t.val % 2 = 0) :
    (outsAt5 V c t.val t.isLt).2 = k1_pay2 (k1_pay1 (F := Ideal)) (iblk5 V c 0 t) (iblk5 V c 1 t) := by
  rw [outsAt5_A V c t h0]
  unfold outA5
  dsimp only
  rw [View.read_writes_eq_canon _ _ _ (scover5_A V c t h0)]
  unfold runA5 kernelRun5_A
  dsimp only
  sl_unfold_words
  rw [View.canon_cons_unit_zero (S := S1024x128) aggHz, View.readCov_unit_zero (S := S1024x128) _ aggHz]
  simp only [View.readAt_eq_ld, (hs5_0 t).read_unread, (hs5_1 t).read_unread, View.ld_unit_zero (S := S1024x5120) aggHz, View.ld_unit_zero (S := S5120x128) aggHz]
  rfl

theorem out_odd5 (c : Dev nD) (t : Fin cfg5.N) (h1 : t.val % 2 = 1) (hlt : t.val - 1 < cfg5.N) :
    (outsAt5 V c t.val t.isLt).1 = k1_pay3 (F := Ideal) (grid5.coords t)
      (k1_pay2 (k1_pay2 k1_pay1 (iblk5 V c 0 ⟨t.val - 1, hlt⟩) (iblk5 V c 1 ⟨t.val - 1, hlt⟩)) (iblk5 V c 0 t) (iblk5 V c 1 t)) (iblk5 V c 2 t) := by
  have h0 : ¬t.val % 2 = 0 := by omega
  have e := scr_even5 V c ⟨t.val - 1, hlt⟩ (by show (t.val - 1) % 2 = 0; omega)
  dsimp only at e
  rw [outsAt5_B V c t h0]
  unfold outB5
  dsimp only
  rw [e]
  rw [View.read_writes_eq_canon _ _ _ (cover5_B_3 V c t h0 _)]
  unfold runB5 kernelRun5_B
  dsimp only
  sl_unfold_words
  rw [View.canon_unit_zero aggHz, View.readCov_unit_zero (S := S1024x128) _ aggHz]
  simp only [View.readAt_eq_ld, (hs5_0 t).read_unread, (hs5_1 t).read_unread, (hs5_2 t).read_unread, (Memref.isWhole_whole cc5_scratch0).read_unread, View.ld_unit_zero (S := S1024x5120) aggHz, View.ld_unit_zero (S := S5120x128) aggHz, View.ld_unit_zero (S := S1024x128) aggHz, View.ld_unit_zero (S := S1x128) aggHz]
  rfl

theorem agg5_value (c : Dev nD) : (dat5 (F := Ideal) V c).arrAt 3 cfg5.N
    = ofMat (Spec.aggK (toMat (V c main_v42)) (toMat (V c main_v52)) (fun j => V c main_v53 (ix2 (0 : Fin 1) j))) :=
  (dat5 V c).arrAt_eq_of_cover 3 _ (fun t hf => by
    have h1 : t.val % 2 = 1 := (flush5_3 t).mp hf
    have hlt : t.val - 1 < cfg5.N := Nat.lt_of_le_of_lt (Nat.sub_le _ _) t.isLt
    show (cfg5.win 3).cut (grid5.coords t) ((dat5 V c).after 3 t) = _
    rw [after5_3, out_odd5 V c t h1 hlt]
    funext j
    rw [View.read_apply]
    exact idx5.point (V c main_v42) (V c main_v52) (V c main_v53) (fun t => ((cfg5.win 0).blk t).view.emb) (fun t => ((cfg5.win 1).blk t).view.emb)
      (fun t => ((cfg5.win 2).blk t).view.emb) (fun t => ((cfg5.win 3).blk t).view.emb)
      (fun _ _ _ => rfl) (fun _ _ _ => rfl) (fun _ _ _ => rfl) (fun _ _ _ => rfl) t h1 hlt j) fun i => by
    obtain ⟨t, h1, h⟩ := idx5.cover N_5 i
    refine ⟨t, (flush5_3 t).mpr h1, ?_⟩
    show i ∈ ((View.whole main_v54).slice (win5_3.rect t)).set
    rw [View.set_slice_whole, Rect.mem_set_unit]
    exact h

end Cert.KernelIdeal.Hand

end
-- ==== Proof.KI.KValue.lean ====
import proofs.«414382_j4741643895756_3_alg».proof.Proof.KI.Keep
import proofs.«414382_j4741643895756_3_alg».proof.Proof.KI.HostA
import proofs.«414382_j4741643895756_3_alg».proof.Proof.KI.HostB
import proofs.«414382_j4741643895756_3_alg».proof.Proof.KI.LinValue
import proofs.«414382_j4741643895756_3_alg».proof.Proof.KI.AggValue
import proofs.«414382_j4741643895756_3_alg».proof.Proof.Glue
import Idealize.ShloMosaic.Lib.ValueIdx

noncomputable section

namespace Cert.KernelIdeal.Hand

open Cert.KernelIdeal Cert.KernelIdeal.Gen Cert.Glue
open Idealize.ShloMosaic Idealize.ShloMosaic.TcCoe Idealize.ShloMosaic.ValueIdx
open Idealize.SL Idealize.SL.Sem

theorem toMat_ofMat {r c : Nat} (f : Fin r → Fin c → EReal) : toMat (ofMat f) = f := rfl

variable (m : (ℓ : Loc nD τ sig) → Buf (Elt Ideal) ℓ) (ρ : Dev nD → PrngReg) (c : Dev nD)

abbrev Adj : Fin 10240 → Fin 10240 → EReal :=
  Spec.adj (srcOf (m ((c : Thread nD τ).loc main_arg1))) (dstOf (m ((c : Thread nD τ).loc main_arg1))) (normOf (m ((c : Thread nD τ).loc main_arg1)))

abbrev Hk0 : Fin 10240 → Fin 128 → EReal := Spec.pad (toMat (m ((c : Thread nD τ).loc main_arg0)))
abbrev Hk1 : Fin 10240 → Fin 128 → EReal := Spec.layerK (Adj m c) (toMat (m ((c : Thread nD τ).loc main_arg2))) (toVec (m ((c : Thread nD τ).loc main_arg3))) (Hk0 m c)
abbrev Hk2 : Fin 10240 → Fin 128 → EReal := Spec.layerK (Adj m c) (toMat (m ((c : Thread nD τ).loc main_arg4))) (toVec (m ((c : Thread nD τ).loc main_arg5))) (Hk1 m c)
abbrev Hk3 : Fin 10240 → Fin 128 → EReal := Spec.layerK (Adj m c) (toMat (m ((c : Thread nD τ).loc main_arg6))) (toVec (m ((c : Thread nD τ).loc main_arg7))) (Hk2 m c)

theorem W3_pad : W3 m ρ c (Proc.devRef .tc main_v45) = ofMat (Hk0 m c) := pad_value (W0 m ρ c)

theorem W4_hw : W4 m ρ c (Proc.devRef .tc main_v46) = ofMat (Spec.lin (Hk0 m c) (toMat (m ((c : Thread nD τ).loc main_arg2)))) := by
  rw [show W4 m ρ c (Proc.devRef .tc main_v46) = (dat0 (V3 m ρ) c).arrAt 2 cfg0.N from wout_arr launch0 _ _ c 2, lin0_value,
    show V3 m ρ c main_v45 = ofMat (Hk0 m c) from W3_pad m ρ c,
    show V3 m ρ c main_arg2 = (m ((c : Thread nD τ).loc main_arg2)) from W3_kept m ρ c (by decide), toMat_ofMat]

variable (hok : EdgesOk (m ((c : Thread nD τ).loc main_arg1)))
include hok

theorem W3_adj : W3 m ρ c (Proc.devRef .tc main_v42) = ofMat (Adj m c) :=
  adj_value (W0 m ρ c) hok
theorem W5_adj : W5 m ρ c (Proc.devRef .tc main_v42) = ofMat (Adj m c) :=
  (StableHlo.after_of_writes_sub hostOps1 _ hostOps1_writes (by decide)).trans ((wout_keep launch0 _ _ (fun _ _ => rfl) c main_v42 (by decide)).trans (W3_adj m ρ c hok))
theorem W8_adj : W8 m ρ c (Proc.devRef .tc main_v42) = ofMat (Adj m c) :=
  (StableHlo.after_of_writes_sub hostOps3 _ hostOps3_writes (by decide)).trans ((wout_keep launch2 _ _ (fun _ _ => rfl) c main_v42 (by decide)).trans
    ((wout_keep launch1 _ _ (fun _ _ => rfl) c main_v42 (by decide)).trans (W5_adj m ρ c hok)))
theorem W11_adj : W11 m ρ c (Proc.devRef .tc main_v42) = ofMat (Adj m c) :=
  (StableHlo.after_of_writes_sub hostOps5 _ hostOps5_writes (by decide)).trans ((wout_keep launch4 _ _ (fun _ _ => rfl) c main_v42 (by decide)).trans
    ((wout_keep launch3 _ _ (fun _ _ => rfl) c main_v42 (by decide)).trans (W8_adj m ρ c hok)))

theorem W6_h : W6 m ρ c (Proc.devRef .tc main_v48) = ofMat (Hk1 m c) := by
  rw [show W6 m ρ c (Proc.devRef .tc main_v48) = (dat1 (V5 m ρ) c).arrAt 3 cfg1.N from wout_arr launch1 _ _ c 3, agg1_value,
    show V5 m ρ c main_v42 = ofMat (Adj m c) from W5_adj m ρ c hok,
    show V5 m ρ c main_v46 = ofMat (Spec.lin (Hk0 m c) (toMat (m ((c : Thread nD τ).loc main_arg2)))) from (StableHlo.after_of_writes_sub hostOps1 _ hostOps1_writes (by decide)).trans (W4_hw m ρ c),
    toMat_ofMat, toMat_ofMat,
    show (fun j => V5 m ρ c main_v47 (ix2 (0 : Fin 1) j)) = toVec (m ((c : Thread nD τ).loc main_arg3)) from
      funext fun j => (bias1_value (W4 m ρ c) j).trans (congrFun (W4_kept m ρ c (r := main_arg3) (by decide)) (ix1 j))]
  rfl

theorem W7_hw : W7 m ρ c (Proc.devRef .tc main_v49) = ofMat (Spec.lin (Hk1 m c) (toMat (m ((c : Thread nD τ).loc main_arg4)))) := by
  rw [show W7 m ρ c (Proc.devRef .tc main_v49) = (dat2 (V6 m ρ) c).arrAt 2 cfg2.N from wout_arr launch2 _ _ c 2, lin2_value,
    show V6 m ρ c main_v48 = ofMat (Hk1 m c) from W6_h m ρ c hok,
    show V6 m ρ c main_arg4 = (m ((c : Thread nD τ).loc main_arg4)) from W6_kept m ρ c (by decide), toMat_ofMat]

theorem W9_h : W9 m ρ c (Proc.devRef .tc main_v51) = ofMat (Hk2 m c) := by
  rw [show W9 m ρ c (Proc.devRef .tc main_v51) = (dat3 (V8 m ρ) c).arrAt 3 cfg3.N from wout_arr launch3 _ _ c 3, agg3_value,
    show V8 m ρ c main_v42 = ofMat (Adj m c) from W8_adj m ρ c hok,
    show V8 m ρ c main_v49 = ofMat (Spec.lin (Hk1 m c) (toMat (m ((c : Thread nD τ).loc main_arg4)))) from (StableHlo.after_of_writes_sub hostOps3 _ hostOps3_writes (by decide)).trans (W7_hw m ρ c hok),
    toMat_ofMat, toMat_ofMat,
    show (fun j => V8 m ρ c main_v50 (ix2 (0 : Fin 1) j)) = toVec (m ((c : Thread nD τ).loc main_arg5)) from
      funext fun j => (bias3_value (W7 m ρ c) j).trans (congrFun (W7_kept m ρ c (r := main_arg5) (by decide)) (ix1 j))]
  rfl

theorem W10_hw : W10 m ρ c (Proc.devRef .tc main_v52) = ofMat (Spec.lin (Hk2 m c) (toMat (m ((c : Thread nD τ).loc main_arg6)))) := by
  rw [show W10 m ρ c (Proc.devRef .tc main_v52) = (dat4 (V9 m ρ) c).arrAt 2 cfg4.N from wout_arr launch4 _ _ c 2, lin4_value,
    show V9 m ρ c main_v51 = ofMat (Hk2 m c) from W9_h m ρ c hok,
    show V9 m ρ c main_arg6 = (m ((c : Thread nD τ).loc main_arg6)) from W9_kept m ρ c (by decide), toMat_ofMat]

theorem W12_h : W12 m ρ c (Proc.devRef .tc main_v54) = ofMat (Hk3 m c) := by
  rw [show W12 m ρ c (Proc.devRef .tc main_v54) = (dat5 (V11 m ρ) c).arrAt 3 cfg5.N from wout_arr launch5 _ _ c 3, agg5_value,
    show V11 m ρ c main_v42 = ofMat (Adj m c) from W11_adj m ρ c hok,
    show V11 m ρ c main_v52 = ofMat (Spec.lin (Hk2 m c) (toMat (m ((c : Thread nD τ).loc main_arg6)))) from (StableHlo.after_of_writes_sub hostOps5 _ hostOps5_writes (by decide)).trans (W10_hw m ρ c hok),
    toMat_ofMat, toMat_ofMat,
    show (fun j => V11 m ρ c main_v53 (ix2 (0 : Fin 1) j)) = toVec (m ((c : Thread nD τ).loc main_arg7)) from
      funext fun j => (bias5_value (W10 m ρ c) j).trans (congrFun (W10_kept m ρ c (r := main_arg7) (by decide)) (ix1 j))]
  rfl

theorem W13_value : W13 m ρ c (Proc.devRef .tc main_v55)
    = ofMat (Spec.kernelOut (Adj m c) (toMat (m ((c : Thread nD τ).loc main_arg0))) (toMat (m ((c : Thread nD τ).loc main_arg2))) (toVec (m ((c : Thread nD τ).loc main_arg3))) (toMat (m ((c : Thread nD τ).loc main_arg4))) (toVec (m ((c : Thread nD τ).loc main_arg5))) (toMat (m ((c : Thread nD τ).loc main_arg6))) (toVec (m ((c : Thread nD τ).loc main_arg7)))) := by
  funext i
  obtain ⟨r, j, rfl⟩ : ∃ (r : Fin 10000) (j : Fin 128), i = ix2 r j := ⟨i 0, i 1, eq_ix2 i⟩
  rw [show W13 m ρ c (Proc.devRef .tc main_v55) (ix2 r j) = W12 m ρ c (Proc.devRef .tc main_v54) (ix2 (⟨r.val, Nat.lt_of_lt_of_le r.isLt (by decide)⟩ : Fin 10240) j)
    from slice_value (W12 m ρ c) r j, W12_h m ρ c hok]
  rfl

omit hok

theorem run_value (hok : ∀ c : Dev nD, EdgesOk (m ((c : Thread nD τ).loc main_arg1))) :
    θ_run defs (onTc (τ := τ) (main (F := Ideal))) ⟨m, fun _ => 0, ρ⟩ (fun r => ∀ c : Dev nD,
      r.2.mem ((c.tc : Thread nD τ).loc main_v55)
        = ofMat (Spec.kernelOut (Adj m c) (toMat (m ((c : Thread nD τ).loc main_arg0))) (toMat (m ((c : Thread nD τ).loc main_arg2))) (toVec (m ((c : Thread nD τ).loc main_arg3))) (toMat (m ((c : Thread nD τ).loc main_arg4))) (toVec (m ((c : Thread nD τ).loc main_arg5))) (toMat (m ((c : Thread nD τ).loc main_arg6))) (toVec (m ((c : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v55 (by decide))).trans (W13_value m ρ c (hok c)),
    args_kept m ρ c r.2 (h c)⟩) (run_all m ρ)

end Cert.KernelIdeal.Hand

end
-- ==== Proof.RefValue.lean ====
import proofs.«414382_j4741643895756_3_alg».proof.Proof.Glue
import Idealize.ShloMosaic.Lib.Affine

noncomputable section

open scoped BigOperators

namespace Cert.Glue

open Cert.ReferenceIdeal Cert.ReferenceIdeal.Read Idealize.ShloMosaic Idealize.ShloMosaic.ValueIdx

namespace Ref

theorem gatherRow_at {α : Type} (x : S10000x128.Idx → α) (idx : IVec S650000x1 32) (e : Fin 650000) (j : Fin 128)
    (r : Fin 10000) (hr : (idx (ix2 e (0 : Fin 1))).toInt = (r.val : Int)) :
    Host.gather gather_S10000x128_S650000x1_S650000x128_1_0_n_n_0_1_1128 x idx (ix2 e j) = x (ix2 r j) := by
  have hsi : ∀ c, gather_S10000x128_S650000x1_S650000x128_1_0_n_n_0_1_1128.siIdx (ix2 e j) c = ix2 e (0 : Fin 1) :=
    fun _ => funext fun b => Fin.ext (match b with | ⟨0, _⟩ => rfl | ⟨1, _⟩ => Fin.val_eq_zero _)
  refine congrArg x (funext fun a => Fin.ext ?_)
  match a with
  | ⟨0, _⟩ =>
    show GatherDims.start _ (ix2 e j) idx 0 + GatherDims.batchCoord _ (ix2 e j) 0 + GatherDims.offCoord _ (ix2 e j) 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by exact List.mem_singleton.mpr rfl), hsi, hr]
    show min _ 9999 + 0 + 0 = r.val
    have := r.isLt
    omega
  | ⟨1, _⟩ =>
    show GatherDims.start _ (ix2 e j) idx 1 + GatherDims.batchCoord _ (ix2 e j) 1 + GatherDims.offCoord _ (ix2 e j) 1 = j.val
    rw [GatherDims.batchCoord_eq_zero _ _ _ List.not_mem_nil]
    unfold GatherDims.start GatherDims.offCoord
    rw [dif_neg (by decide), dif_pos ((GatherDims.mem_sKept _ _).mpr ⟨by decide, List.not_mem_nil⟩)]
    exact Nat.zero_add _

theorem scat_resultIdx (idx : IVec S650000x1 32) (e : Fin 650000) (j : Fin 128) (r : Fin 10000)
    (hr : (idx (ix2 e (0 : Fin 1))).toInt = (r.val : Int)) :
    scatter_S10000x128_S650000x1_S650000x128_1_0_0_1.resultIdx? (ix2 e j) idx = some (ix2 r j) := by
  have hsi : ∀ c, scatter_S10000x128_S650000x1_S650000x128_1_0_0_1.siIdx (ix2 e j) c = ix2 e (0 : Fin 1) :=
    fun _ => funext fun b => Fin.ext (match b with | ⟨0, _⟩ => rfl | ⟨1, _⟩ => Fin.val_eq_zero _)
  have h0 : scatter_S10000x128_S650000x1_S650000x128_1_0_0_1.start (ix2 e j) idx 0 + scatter_S10000x128_S650000x1_S650000x128_1_0_0_1.window (ix2 e j) 0 = (r.val : Int) := by
    unfold ScatterDims.start ScatterDims.window
    rw [dif_pos (by exact List.mem_singleton.mpr rfl), dif_neg (by decide), hsi, hr]
    rfl
  have h1 : scatter_S10000x128_S650000x1_S650000x128_1_0_0_1.start (ix2 e j) idx 1 + scatter_S10000x128_S650000x1_S650000x128_1_0_0_1.window (ix2 e j) 1 = (j.val : Int) := by
    unfold ScatterDims.start ScatterDims.window
    rw [dif_neg (by decide), dif_pos (by decide)]
    exact Int.zero_add _
  unfold ScatterDims.resultIdx?
  rw [dif_pos (Fin.forall_fin_two.mpr ⟨by rw [h0]; exact ⟨Int.natCast_nonneg _, Int.ofNat_lt.mpr r.isLt⟩,
    by rw [h1]; exact ⟨Int.natCast_nonneg _, Int.ofNat_lt.mpr j.isLt⟩⟩)]
  exact congrArg some (funext fun a => Fin.ext (match a with
    | ⟨0, _⟩ => (congrArg Int.toNat h0).trans (Int.toNat_natCast _)
    | ⟨1, _⟩ => (congrArg Int.toNat h1).trans (Int.toNat_natCast _)))

theorem scatterAdd_apply (x : S10000x128.Idx → EReal) (idx : IVec S650000x1 32) (upd : S650000x128.Idx → EReal)
    (dst : Fin 650000 → Fin 10000) (hdst : ∀ e, (idx (ix2 e (0 : Fin 1))).toInt = ((dst e).val : Int))
    (d : Fin 10000) (j : Fin 128) :
    Host.scatterAdd (F := Ideal) (φ := .f32) scatter_S10000x128_S650000x1_S650000x128_1_0_0_1 x idx upd (ix2 d j)
      = x (ix2 d j) + ∑ e ∈ Finset.univ.filter (fun e : Fin 650000 => dst e = d), upd (ix2 e j) := by
  show x (ix2 d j) + ∑ u ∈ Finset.univ.filter (fun u => scatter_S10000x128_S650000x1_S650000x128_1_0_0_1.resultIdx? u idx = some (ix2 d j)), upd u = _
  refine congrArg (fun z => x (ix2 d j) + z) ?_
  rw [Finset.sum_filter, sum_idx2, Finset.sum_filter]
  refine Finset.sum_congr rfl fun a _ => ?_
  have hiff : ∀ b : Fin 128, (scatter_S10000x128_S650000x1_S650000x128_1_0_0_1.resultIdx? (ix2 a b) idx = some (ix2 d j)) ↔ (dst a = d ∧ b = j) := by
    intro b
    rw [scat_resultIdx idx a b (dst a) (hdst a), Option.some.injEq]
    constructor
    · intro h
      exact ⟨congrFun h 0, congrFun h 1⟩
    · rintro ⟨h1, h2⟩
      rw [h1, h2]
  simp only [hiff]
  by_cases h : dst a = d
  · simp only [h, true_and, if_true]
    rw [Finset.sum_ite_eq' Finset.univ j (fun b => upd (ix2 a b)), if_pos (Finset.mem_univ j)]
  · simp only [h, false_and, if_false]
    exact Finset.sum_const_zero

theorem v42_at (x1 : EI) (e : Fin 650000) : val_main_v42 (F := Ideal) x1 (ix2 e (0 : Fin 1)) = dstW x1 e := by
  rw [val_main_v42_apply]
  exact congrArg (val_main_v6 (F := Ideal) x1) (funext fun a => match a with | ⟨0, _⟩ => rfl)

theorem slt_zero_of_nonneg (w : BitVec 32) (h : 0 ≤ w.toInt) : IntOp.cmpi .slt w 0#32 = 0#1 :=
  eq_zero_of_ne_one fun h1 => absurd (IntOp.cmpi_slt.1 h1) (not_lt.2 h)

theorem v36_at (x1 : EI) (hok : EdgesOk x1) (e : Fin 650000) :
    val_main_v36 (F := Ideal) x1 (ix2 e (0 : Fin 1)) = srcW x1 e := by
  rw [val_main_v36_apply]
  have hi : idx_main_v36 (ix2 e (0 : Fin 1)) = ix1 e := funext fun a => match a with | ⟨0, _⟩ => rfl
  rw [hi, val_main_v35_apply, val_main_v32_apply, val_main_v31_apply, val_main_c_6_apply]
  have hs : (val_main_v3 (F := Ideal) x1 (ix1 e)).toInt = ((srcOf x1 e).val : Int) := (hok e).1
  rw [slt_zero_of_nonneg _ (by rw [hs]; omega), select_zero]
  rfl

theorem v39_at (x1 : EI) (e : Fin 650000) (j : Fin 128) :
    val_main_v39 (F := Ideal) x1 (ix2 e j) = normOf x1 e := by
  rw [val_main_v39_apply, val_main_v38_apply]
  exact congrArg (val_main_v29 (F := Ideal) x1) (funext fun a => match a with | ⟨0, _⟩ => rfl)

theorem v45_at (b) (d : Fin 10000) (j : Fin 128) :
    val_main_v45 (F := Ideal) b (ix2 d j) = toVec b j := by
  rw [val_main_v45_apply, val_main_v44_apply]
  exact congrArg b (funext fun a => match a with | ⟨0, _⟩ => rfl)

theorem v41_at (i : S10000x128.Idx) : val_main_v41 (F := Ideal) i = 0 := by
  rw [val_main_v41_apply, val_main_cst_8_apply]
  exact Ideal.ofBits_zero_f32

theorem relu_zero_at (i : S10000x128.Idx) : val_main_call1_v0 (F := Ideal) i = 0 := by
  rw [val_main_call1_v0_apply, val_main_call1_cst_apply]
  exact Ideal.ofBits_zero_f32

theorem v30_at (h w) (r : Fin 10000) (j : Fin 128) :
    val_main_v30 (F := Ideal) h w (ix2 r j) = Spec.lin (toMat h) (toMat w) r j := by
  rw [val_main_v30_apply]
  refine Finset.sum_congr rfl fun k _ => ?_
  have el : lidx_main_v30 (ix2 r j) k = ix2 r k := funext fun a => match a with | ⟨0, _⟩ => rfl | ⟨1, _⟩ => rfl
  have er : ridx_main_v30 (ix2 r j) k = ix2 k j := funext fun a => match a with | ⟨0, _⟩ => rfl | ⟨1, _⟩ => rfl
  rw [el, er]
  rfl

theorem v40_at (h x1 w) (hok : EdgesOk x1) (e : Fin 650000) (j : Fin 128) :
    val_main_v40 (F := Ideal) h x1 w (ix2 e j) = Spec.lin (toMat h) (toMat w) (srcOf x1 e) j * normOf x1 e := by
  rw [val_main_v40_apply, v39_at x1 e j]
  unfold val_main_v37
  rw [gatherRow_at _ _ e j (srcOf x1 e) (by rw [v36_at x1 hok e]; exact (hok e).1), v30_at]
  rfl

theorem v43_at (h x1 w) (hok : EdgesOk x1) (d : Fin 10000) (j : Fin 128) :
    val_main_v43 (F := Ideal) h x1 w (ix2 d j)
      = ∑ e ∈ Finset.univ.filter (fun e : Fin 650000 => dstOf x1 e = d),
          Spec.lin (toMat h) (toMat w) (srcOf x1 e) j * normOf x1 e := by
  unfold val_main_v43
  rw [scatterAdd_apply _ _ _ (dstOf x1) (fun e => by rw [v42_at]; exact (hok e).2) d j, v41_at, zero_add]
  exact Finset.sum_congr rfl fun e _ => v40_at h x1 w hok e j

theorem ref_layer (h x1 w b) (hok : EdgesOk x1) :
    val_main_v47 (F := Ideal) h x1 w b
      = ofMat (Spec.layerR (srcOf x1) (dstOf x1) (normOf x1) (toMat w) (toVec b) (toMat h)) := by
  funext i
  obtain ⟨d, j, rfl⟩ : ∃ (d : Fin 10000) (j : Fin 128), i = ix2 d j := ⟨i 0, i 1, eq_ix2 i⟩
  rw [val_main_v47_apply, val_main_v46_apply, v43_at h x1 w hok d j, v45_at b d j, relu_zero_at]
  rfl

end Ref

open Ref in

theorem ref_value (x0 x1 x2 x3 x4 x5 x6 x7) (hok : EdgesOk x1) :
    val_main_v83 (F := Ideal) x0 x1 x2 x3 x4 x5 x6 x7
      = ofMat (Spec.refOut (srcOf x1) (dstOf x1) (normOf x1) (toMat x0) (toMat x2) (toVec x3) (toMat x4) (toVec x5) (toMat x6) (toVec x7)) := by
  have e3 : val_main_v83 (F := Ideal) x0 x1 x2 x3 x4 x5 x6 x7
      = val_main_v47 (F := Ideal) (val_main_v65 (F := Ideal) x0 x1 x2 x3 x4 x5) x1 x6 x7 := rfl
  have e2 : val_main_v65 (F := Ideal) x0 x1 x2 x3 x4 x5
      = val_main_v47 (F := Ideal) (val_main_v47 (F := Ideal) x0 x1 x2 x3) x1 x4 x5 := rfl
  rw [e3, ref_layer _ x1 x6 x7 hok, e2, ref_layer _ x1 x4 x5 hok, ref_layer x0 x1 x2 x3 hok]
  rfl

end Cert.Glue

end
-- ==== Proof.Prefix.lean ====
import proofs.«414382_j4741643895756_3_alg».proof.Proof.Glue
import proofs.«414382_j4741643895756_3_alg».proof.Pre_finite_inputs
import Idealize.ShloMosaic.Lib.ReduceAll
import Idealize.ShloMosaic.Lib.StableHlo.Predicate

noncomputable section

namespace Cert.Glue

open Idealize.ShloMosaic Idealize.ShloMosaic.ValueIdx Cert.ReferenceIdeal Cert.ReferenceIdeal.Read

instance subsingleton_scalar_idx : Subsingleton Cert.Pre_finite_inputs.S_.Idx := ⟨fun a b => funext fun d => d.elim0⟩

theorem inRange_of_pre [Cert.Pre_finite_inputs.Facts] (a0 : FVec Ideal Cert.Pre_finite_inputs.S10000x128 .f32) (a1 : IVec Cert.Pre_finite_inputs.S2x640000 32) (a2 : FVec Ideal Cert.Pre_finite_inputs.S128x128 .f32) (a3 : FVec Ideal Cert.Pre_finite_inputs.S128 .f32) (a4 : FVec Ideal Cert.Pre_finite_inputs.S128x128 .f32) (a5 : FVec Ideal Cert.Pre_finite_inputs.S128 .f32) (a6 : FVec Ideal Cert.Pre_finite_inputs.S128x128 .f32) (a7 : FVec Ideal Cert.Pre_finite_inputs.S128 .f32)
    (h : Cert.Pre_finite_inputs.fn (F := Ideal) a0 a1 a2 a3 a4 a5 a6 a7 = fun _ => 1#1) : InRange a1 := by
  obtain ⟨v33, h2⟩ : ∃ v33, Cert.Pre_finite_inputs.fn_part2 (F := Ideal) a1 v33 ValueIdx.ix0 = 1#1 := ⟨_, congrFun h ValueIdx.ix0⟩
  unfold Cert.Pre_finite_inputs.fn_part2 at h2
  dsimp only at h2
  obtain ⟨h3, hlt⟩ := IntOp.andi_eq_one.1 h2
  obtain ⟨_, hge⟩ := IntOp.andi_eq_one.1 h3
  exact fun i => ⟨IntOp.cmpi_sge.1 (Host.reduce_andi_all _ _ _ _ _ hge i), IntOp.cmpi_slt.1 (Host.reduce_andi_all _ _ _ _ _ hlt i)⟩

theorem toInt_eq_node (w : BitVec 32) (h0 : 0 ≤ w.toInt) (h1 : w.toInt < 10000) :
    w.toInt = ((w.toNat % 10000 : Nat) : Int) := by
  have e := BitVec.toInt_eq_toNat_cond w
  have hl := w.isLt
  split at e <;> omega

theorem toInt_ofNat_node (n : Nat) (hn : n < 10000) :
    0 ≤ (BitVec.ofNat 32 n).toInt ∧ (BitVec.ofNat 32 n).toInt < 10000 := by
  rw [StableHlo.Predicate.toInt_ofNat_small n (by omega)]; omega

/-- What holds of every given entry and of every node number holds of the given edges followed by the nodes in order. -/
theorem edge_cat_ind {P : BitVec 32 → Prop} (y : S640000.Idx → BitVec 32) (hy : ∀ i, P (y i))
    (hn : ∀ n, n < 10000 → P (BitVec.ofNat 32 n)) (e : Fin 650000) :
    P (concatenate S650000 0 [⟨S640000, y⟩, ⟨S10000, val_main_v0 (F := Ideal)⟩] Gen.concatenates_S640000_S10000_S650000_d0 (ix1 e)) := by
  by_cases he : e.val < 640000
  · rw [concatenate_pair_apply_left (t := S650000) (s₁ := S640000) (s₂ := S10000) (0 : Fin 1) _ _ _ (ix1 e) rfl (ix1 (⟨e.val, he⟩ : Fin 640000)) (fun b => match b with | ⟨0, _⟩ => rfl)]
    exact hy _
  · have hlt : e.val - 640000 < 10000 := by have := e.isLt; omega
    rw [concatenate_pair_apply_right (t := S650000) (s₁ := S640000) (s₂ := S10000) (0 : Fin 1) _ _ _ (ix1 e) rfl rfl (ix1 (⟨e.val - 640000, hlt⟩ : Fin 10000))
      (fun b hb => absurd (Subsingleton.elim _ _) hb) (show e.val - 640000 + 640000 = e.val by omega)]
    exact hn (e.val - 640000) hlt

theorem edgesOk_of_inRange (x1 : EI) (hr : InRange x1) : EdgesOk x1 := fun e =>
  have hn : ∀ n, n < 10000 → (BitVec.ofNat 32 n).toInt = (((BitVec.ofNat 32 n).toNat % 10000 : Nat) : Int) := fun n h =>
    toInt_eq_node _ (toInt_ofNat_node n h).1 (toInt_ofNat_node n h).2
  ⟨edge_cat_ind (P := fun w => w.toInt = ((w.toNat % 10000 : Nat) : Int)) _
      (fun i => by rw [val_main_v2_apply, val_main_v1_apply]; exact toInt_eq_node _ (hr _).1 (hr _).2) hn e,
    edge_cat_ind (P := fun w => w.toInt = ((w.toNat % 10000 : Nat) : Int)) _
      (fun i => by rw [val_main_v5_apply, val_main_v4_apply]; exact toInt_eq_node _ (hr _).1 (hr _).2) hn e⟩

theorem rsqrt_nonneg_of_pos (x : EReal) (hx : 0 < x) : 0 ≤ Ideal.rsqrt x := by
  induction x using EReal.rec with
  | bot => exact absurd hx (by simp)
  | top => simp
  | coe r =>
    have hr : 0 < r := by exact_mod_cast hx
    rw [Ideal.rsqrt_coe, if_neg (not_lt.2 hr.le), if_neg hr.ne']
    exact_mod_cast inv_nonneg.2 (Real.sqrt_nonneg r)

theorem dinv_nonneg (x1 : EI) (i : S10000.Idx) : (0 : EReal) ≤ val_main_v14 (F := Ideal) x1 i := by
  rw [val_main_v14_apply]
  unfold Scalar.select
  split
  · next hc =>
    rw [val_main_v12_apply, val_main_v11_apply, val_main_cst_1_apply, Ideal.cmpf_def] at hc
    rw [val_main_v13_apply]
    generalize (val_main_v10 (F := Ideal) x1 i : EReal) = d at hc ⊢
    refine rsqrt_nonneg_of_pos d ?_
    by_contra hn
    simp [Ideal.cmp, hn] at hc
  · rw [val_main_call0_v1_apply, val_main_call0_v0_apply, val_main_cst_2_apply]
    exact le_of_eq Ideal.ofBits_zero_f32.symm

theorem normOf_nonneg (x1 : EI) : ∀ e, 0 ≤ normOf x1 e := fun e => by
  unfold normOf
  rw [val_main_v29_apply]
  unfold val_main_v21 val_main_v28 Host.gather
  exact EReal.mul_nonneg (dinv_nonneg x1 _) (dinv_nonneg x1 _)

end Cert.Glue

end
-- ==== Proof.lean ====
import proofs.«414382_j4741643895756_3_alg».proof.Defs
import proofs.«414382_j4741643895756_3_alg».proof.Proof.Gen.Kernel
import proofs.«414382_j4741643895756_3_alg».proof.Proof.Gen.KernelIdeal
import proofs.«414382_j4741643895756_3_alg».proof.Proof.Gen.ReferenceIdeal
import proofs.«414382_j4741643895756_3_alg».proof.Proof.Gen.Pre_finite_inputs
import proofs.«414382_j4741643895756_3_alg».proof.Proof.KB.Keep
import proofs.«414382_j4741643895756_3_alg».proof.Proof.KI.Keep
import proofs.«414382_j4741643895756_3_alg».proof.Proof.RefImports
import proofs.«414382_j4741643895756_3_alg».proof.Proof.Glue
import proofs.«414382_j4741643895756_3_alg».proof.Proof.Algebra
import proofs.«414382_j4741643895756_3_alg».proof.Proof.KI.KValue
import proofs.«414382_j4741643895756_3_alg».proof.Proof.RefValue
import proofs.«414382_j4741643895756_3_alg».proof.Proof.Prefix

noncomputable section

namespace Cert.Proof

open Idealize.ShloMosaic Idealize.SL.Sem Cert.Glue

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg1)) :=
    fun c => inRange_of_pre _ _ _ _ _ _ _ _ (hpre c)
  have hok : ∀ c : Dev Cert.KernelIdeal.nD, EdgesOk (m ((c.tc : Thread Cert.KernelIdeal.nD Cert.KernelIdeal.τ).loc Cert.KernelIdeal.main_arg1)) :=
    fun c => edgesOk_of_inRange _ (hr c)
  refine ⟨_, Cert.KernelIdeal.Hand.run_value m ρ hok, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq, (hagree c).1, (hagree c).2.1, (hagree c).2.2.1, (hagree c).2.2.2.1,
    (hagree c).2.2.2.2.1, (hagree c).2.2.2.2.2.1, (hagree c).2.2.2.2.2.2.1, (hagree c).2.2.2.2.2.2.2,
    ref_value _ _ _ _ _ _ _ _ (hok c)]
  exact congrArg ofMat (Cert.Spec.kernelOut_adj_eq_refOut _ _ _ (normOf_nonneg _) _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
